-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v72)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v72) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v106) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x2 : Shape := ⟨2, ![100000, 2]⟩
abbrev S2x1600000 : Shape := ⟨2, ![2, 1600000]⟩
abbrev S2x64 : Shape := ⟨2, ![2, 64]⟩
abbrev S64 : Shape := ⟨1, ![64]⟩
abbrev S64x64 : Shape := ⟨2, ![64, 64]⟩
abbrev S_ : Shape := ⟨0, ![]⟩

class Facts : Prop where
  bcast_S_S100000x2 : S_.BroadcastsInDim S100000x2 (![] : Fin 0 → Fin S100000x2.rank)
  reducesTo_S100000x2_S_d0_1 : S100000x2.ReducesTo [0, 1] S_
  h_S_ : 0 < S_.numel
  bcast_S_S2x64 : S_.BroadcastsInDim S2x64 (![] : Fin 0 → Fin S2x64.rank)
  reducesTo_S2x64_S_d0_1 : S2x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_

variable [Facts]

def fn_part3 {F : FTy → Type} [FloatOps F] (main_v48 : IVec S_ 1) (main_v49 : FVec F S64 .f32) (main_v50 : FVec F S64 .f32) : IVec S_ 1 :=
  let main_v51 : IVec S64 1 := cmpf .olt main_v49 main_v50
  let main_c_19 : IVec S_ 1 := constantI S_ 1 1#1
  let main_v52 : IVec S_ 1 := (fun x v => Host.reduce IntOp.andi x v reducesTo_S64_S_d0 h_S_) main_v51 main_c_19
  let main_v53 : IVec S_ 1 := andi main_v48 main_v52
  main_v53

def fn_part2 {F : FTy → Type} [FloatOps F] (main_arg8 : FVec F S64 .f32) (main_arg9 : FVec F S64 .f32) (main_arg10 : FVec F S64 .f32) (main_arg11 : FVec F S64 .f32) (main_v33 : IVec S_ 1) : IVec S_ 1 :=
  let main_v34 : FVec F S64 .f32 := Host.absf main_arg8
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  let main_v39 : FVec F S64 .f32 := Host.absf main_arg9
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  let main_v44 : FVec F S64 .f32 := Host.absf main_arg10
  let main_cst_16 : FVec F S_ .f32 := constant S_ .f32 0x7F800000#32
  let main_v45 : FVec F S64 .f32 := broadcastInDim S64 ![] bcast_S_S64 main_cst_16
  let main_v46 : IVec S64 1 := cmpf .olt main_v44 main_v45
  let main_c_17 : IVec S_ 1 := constantI S_ 1 1#1
  let main_v47 : IVec S_ 1 := (fun x v => Host.reduce IntOp.andi x v reducesTo_S64_S_d0 h_S_) main_v46 main_c_17
  let main_v48 : IVec S_ 1 := andi main_v43 main_v47
  let main_v49 : FVec F S64 .f32 := Host.absf main_arg11
  let main_cst_18 : FVec F S_ .f32 := constant S_ .f32 0x7F800000#32
  let main_v50 : FVec F S64 .f32 := broadcastInDim S64 ![] bcast_S_S64 main_cst_18
  fn_part3 (F := F) main_v48 main_v49 main_v50

def fn_part1 {F : FTy → Type} [FloatOps F] (main_arg5 : FVec F S64x64 .f32) (main_arg6 : FVec F S64 .f32) (main_arg7 : FVec F S64x64 .f32) (main_arg8 : FVec F S64 .f32) (main_arg9 : FVec F S64 .f32) (main_arg10 : FVec F S64 .f32) (main_arg11 : FVec F S64 .f32) (main_v13 : IVec S_ 1) (main_v16 : IVec S2x64 1) : IVec S_ 1 :=
  let main_c_5 : IVec S_ 1 := constantI S_ 1 1#1
  let main_v17 : IVec S_ 1 := (fun x v => Host.reduce IntOp.andi x v reducesTo_S2x64_S_d0_1 h_S_) main_v16 main_c_5
  let main_v18 : IVec S_ 1 := andi main_v13 main_v17
  let main_v19 : FVec F S64x64 .f32 := Host.absf main_arg5
  let main_cst_6 : FVec F S_ .f32 := constant S_ .f32 0x7F800000#32
  let main_v20 : FVec F S64x64 .f32 := broadcastInDim S64x64 ![] bcast_S_S64x64 main_cst_6
  let main_v21 : IVec S64x64 1 := cmpf .olt main_v19 main_v20
  let main_c_7 : IVec S_ 1 := constantI S_ 1 1#1
  let main_v22 : IVec S_ 1 := (fun x v => Host.reduce IntOp.andi x v reducesTo_S64x64_S_d0_1 h_S_) main_v21 main_c_7
  let main_v23 : IVec S_ 1 := andi main_v18 main_v22
  let main_v24 : FVec F S64 .f32 := Host.absf main_arg6
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S64x64 .f32 := Host.absf main_arg7
  let main_cst_10 : FVec F S_ .f32 := constant S_ .f32 0x7F800000#32
  let main_v30 : FVec F S64x64 .f32 := broadcastInDim S64x64 ![] bcast_S_S64x64 main_cst_10
  let main_v31 : IVec S64x64 1 := cmpf .olt main_v29 main_v30
  let main_c_11 : IVec S_ 1 := constantI S_ 1 1#1
  let main_v32 : IVec S_ 1 := (fun x v => Host.reduce IntOp.andi x v reducesTo_S64x64_S_d0_1 h_S_) main_v31 main_c_11
  let main_v33 : IVec S_ 1 := andi main_v28 main_v32
  fn_part2 (F := F) main_arg8 main_arg9 main_arg10 main_arg11 main_v33

def fn {F : FTy → Type} [FloatOps F] (main_arg0 : FVec F S100000x2 .f32) (main_arg1 : IVec S2x1600000 32) (main_arg2 : FVec F S2x64 .f32) (main_arg3 : FVec F S64 .f32) (main_arg4 : FVec F S2x64 .f32) (main_arg5 : FVec F S64x64 .f32) (main_arg6 : FVec F S64 .f32) (main_arg7 : FVec F S64x64 .f32) (main_arg8 : FVec F S64 .f32) (main_arg9 : FVec F S64 .f32) (main_arg10 : FVec F S64 .f32) (main_arg11 : FVec F S64 .f32) : IVec S_ 1 :=
  let main_v0 : FVec F S100000x2 .f32 := Host.absf main_arg0
  let main_cst : FVec F S_ .f32 := constant S_ .f32 0x7F800000#32
  let main_v1 : FVec F S100000x2 .f32 := broadcastInDim S100000x2 ![] bcast_S_S100000x2 main_cst
  let main_v2 : IVec S100000x2 1 := cmpf .olt main_v0 main_v1
  let main_c : IVec S_ 1 := constantI S_ 1 1#1
  let main_v3 : IVec S_ 1 := (fun x v => Host.reduce IntOp.andi x v reducesTo_S100000x2_S_d0_1 h_S_) main_v2 main_c
  let main_v4 : FVec F S2x64 .f32 := Host.absf main_arg2
  let main_cst_0 : FVec F S_ .f32 := constant S_ .f32 0x7F800000#32
  let main_v5 : FVec F S2x64 .f32 := broadcastInDim S2x64 ![] bcast_S_S2x64 main_cst_0
  let main_v6 : IVec S2x64 1 := cmpf .olt main_v4 main_v5
  let main_c_1 : IVec S_ 1 := constantI S_ 1 1#1
  let main_v7 : IVec S_ 1 := (fun x v => Host.reduce IntOp.andi x v reducesTo_S2x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S2x64 .f32 := Host.absf main_arg4
  let main_cst_4 : FVec F S_ .f32 := constant S_ .f32 0x7F800000#32
  let main_v15 : FVec F S2x64 .f32 := broadcastInDim S2x64 ![] bcast_S_S2x64 main_cst_4
  let main_v16 : IVec S2x64 1 := cmpf .olt main_v14 main_v15
  fn_part1 (F := F) main_arg5 main_arg6 main_arg7 main_arg8 main_arg9 main_arg10 main_arg11 main_v13 main_v16
-- ==== Kernel.lean ====
abbrev S100000x2 : Shape := ⟨2, ![100000, 2]⟩
abbrev S2x1600000 : Shape := ⟨2, ![2, 1600000]⟩
abbrev S2x64 : Shape := ⟨2, ![2, 64]⟩
abbrev S64 : Shape := ⟨1, ![64]⟩
abbrev S64x64 : Shape := ⟨2, ![64, 64]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S1600000x2 : Shape := ⟨2, ![1600000, 2]⟩
abbrev S100000x1 : Shape := ⟨2, ![100000, 1]⟩
abbrev S1x64 : Shape := ⟨2, ![1, 64]⟩
abbrev S100000x64 : Shape := ⟨2, ![100000, 64]⟩
abbrev S2000x2 : Shape := ⟨2, ![2000, 2]⟩
abbrev S2000x64 : Shape := ⟨2, ![2000, 64]⟩
abbrev S1600000x64 : Shape := ⟨2, ![1600000, 64]⟩

abbrev nBuf : Space → Nat
  | .hbm => 105
  | .vmem => 33
  | .smem => 0
  | _ => 0

abbrev bufTy : (tb : Table) → Fin (tcTables nBuf tb) → BufTy
  | .hbm, ⟨0, _⟩ => ⟨S100000x2, .f32⟩
  | .hbm, ⟨1, _⟩ => ⟨S2x1600000, .i32⟩
  | .hbm, ⟨2, _⟩ => ⟨S2x64, .f32⟩
  | .hbm, ⟨3, _⟩ => ⟨S64, .f32⟩
  | .hbm, ⟨4, _⟩ => ⟨S2x64, .f32⟩
  | .hbm, ⟨5, _⟩ => ⟨S64x64, .f32⟩
  | .hbm, ⟨6, _⟩ => ⟨S64, .f32⟩
  | .hbm, ⟨7, _⟩ => ⟨S64x64, .f32⟩
  | .hbm, ⟨8, _⟩ => ⟨S64, .f32⟩
  | .hbm, ⟨9, _⟩ => ⟨S64, .f32⟩
  | .hbm, ⟨10, _⟩ => ⟨S64, .f32⟩
  | .hbm, ⟨11, _⟩ => ⟨S64, .f32⟩
  | .hbm, ⟨12, _⟩ => ⟨S1x1600000, .i32⟩
  | .hbm, ⟨13, _⟩ => ⟨S1600000, .i32⟩
  | .hbm, ⟨14, _⟩ => ⟨S1x1600000, .i32⟩
  | .hbm, ⟨15, _⟩ => ⟨S1600000, .i32⟩
  | .hbm, ⟨16, _⟩ => ⟨S_, .f32⟩
  | .hbm, ⟨17, _⟩ => ⟨S1600000, .f32⟩
  | .hbm, ⟨18, _⟩ => ⟨S_, .f32⟩
  | .hbm, ⟨19, _⟩ => ⟨S100000, .f32⟩
  | .hbm, ⟨20, _⟩ => ⟨S1600000x1, .i32⟩
  | .hbm, ⟨21, _⟩ => ⟨S100000, .f32⟩
  | .hbm, ⟨22, _⟩ => ⟨S_, .f32⟩
  | .hbm, ⟨23, _⟩ => ⟨S100000, .f32⟩
  | .hbm, ⟨24, _⟩ => ⟨S100000, .f32⟩
  | .hbm, ⟨25, _⟩ => ⟨S_, .f32⟩
  | .hbm, ⟨26, _⟩ => ⟨S100000, .f32⟩
  | .hbm, ⟨27, _⟩ => ⟨S100000, .f32⟩
  | .hbm, ⟨28, _⟩ => ⟨S_, .i32⟩
  | .hbm, ⟨29, _⟩ => ⟨S1600000, .i32⟩
  | .hbm, ⟨30, _⟩ => ⟨S1600000, .i1⟩
  | .hbm, ⟨31, _⟩ => ⟨S_, .i32⟩
  | .hbm, ⟨32, _⟩ => ⟨S1600000, .i32⟩
  | .hbm, ⟨33, _⟩ => ⟨S1600000, .i32⟩
  | .hbm, ⟨34, _⟩ => ⟨S1600000, .i32⟩
  | .hbm, ⟨35, _⟩ => ⟨S1600000x1, .i32⟩
  | .hbm, ⟨36, _⟩ => ⟨S1600000x2, .f32⟩
  | .hbm, ⟨37, _⟩ => ⟨S_, .f32⟩
  | .hbm, ⟨38, _⟩ => ⟨S100000x2, .f32⟩
  | .hbm, ⟨39, _⟩ => ⟨S1600000x1, .i32⟩
  | .hbm, ⟨40, _⟩ => ⟨S100000x2, .f32⟩
  | .hbm, ⟨41, _⟩ => ⟨S100000x1, .f32⟩
  | .hbm, ⟨42, _⟩ => ⟨S100000x2, .f32⟩
  | .hbm, ⟨43, _⟩ => ⟨S100000x2, .f32⟩
  | .hbm, ⟨44, _⟩ => ⟨S1x64, .f32⟩
  | .hbm, ⟨45, _⟩ => ⟨S100000x64, .f32⟩
  | .hbm, ⟨46, _⟩ => ⟨S1x64, .f32⟩
  | .hbm, ⟨47, _⟩ => ⟨S1x64, .f32⟩
  | .hbm, ⟨48, _⟩ => ⟨S_, .f32⟩
  | .hbm, ⟨49, _⟩ => ⟨S1x64, .f32⟩
  | .hbm, ⟨50, _⟩ => ⟨S1x64, .f32⟩
  | .hbm, ⟨51, _⟩ => ⟨S_, .f32⟩
  | .hbm, ⟨52, _⟩ => ⟨S1x64, .f32⟩
  | .hbm, ⟨53, _⟩ => ⟨S1x64, .f32⟩
  | .hbm, ⟨54, _⟩ => ⟨S1x64, .f32⟩
  | .hbm, ⟨55, _⟩ => ⟨S1x64, .f32⟩
  | .hbm, ⟨56, _⟩ => ⟨S1x64, .f32⟩
  | .hbm, ⟨57, _⟩ => ⟨S_, .f32⟩
  | .hbm, ⟨58, _⟩ => ⟨S1x64, .f32⟩
  | .hbm, ⟨59, _⟩ => ⟨S1x64, .f32⟩
  | .hbm, ⟨60, _⟩ => ⟨S1x64, .f32⟩
  | .hbm, ⟨61, _⟩ => ⟨S1x64, .f32⟩
  | .hbm, ⟨62, _⟩ => ⟨S1x64, .f32⟩
  | .hbm, ⟨63, _⟩ => ⟨S1x64, .f32⟩
  | .hbm, ⟨64, _⟩ => ⟨S1x64, .f32⟩
  | .hbm, ⟨65, _⟩ => ⟨S100000x64, .f32⟩
  | .hbm, ⟨66, _⟩ => ⟨S_, .i32⟩
  | .hbm, ⟨67, _⟩ => ⟨S1600000, .i32⟩
  | .hbm, ⟨68, _⟩ => ⟨S1600000, .i1⟩
  | .hbm, ⟨69, _⟩ => ⟨S_, .i32⟩
  | .hbm, ⟨70, _⟩ => ⟨S1600000, .i32⟩
  | .hbm, ⟨71, _⟩ => ⟨S1600000, .i32⟩
  | .hbm, ⟨72, _⟩ => ⟨S1600000, .i32⟩
  | .hbm, ⟨73, _⟩ => ⟨S1600000x1, .i32⟩
  | .hbm, ⟨74, _⟩ => ⟨S1600000x64, .f32⟩
  | .hbm, ⟨75, _⟩ => ⟨S_, .f32⟩
  | .hbm, ⟨76, _⟩ => ⟨S100000x64, .f32⟩
  | .hbm, ⟨77, _⟩ => ⟨S1600000x1, .i32⟩
  | .hbm, ⟨78, _⟩ => ⟨S100000x64, .f32⟩
  | .hbm, ⟨79, _⟩ => ⟨S100000x1, .f32⟩
  | .hbm, ⟨80, _⟩ => ⟨S100000x64, .f32⟩
  | .hbm, ⟨81, _⟩ => ⟨S100000x64, .f32⟩
  | .hbm, ⟨82, _⟩ => ⟨S1x64, .f32⟩
  | .hbm, ⟨83, _⟩ => ⟨S100000x64, .f32⟩
  | .hbm, ⟨84, _⟩ => ⟨S1x64, .f32⟩
  | .hbm, ⟨85, _⟩ => ⟨S1x64, .f32⟩
  | .hbm, ⟨86, _⟩ => ⟨S_, .f32⟩
  | .hbm, ⟨87, _⟩ => ⟨S1x64, .f32⟩
  | .hbm, ⟨88, _⟩ => ⟨S1x64, .f32⟩
  | .hbm, ⟨89, _⟩ => ⟨S_, .f32⟩
  | .hbm, ⟨90, _⟩ => ⟨S1x64, .f32⟩
  | .hbm, ⟨91, _⟩ => ⟨S1x64, .f32⟩
  | .hbm, ⟨92, _⟩ => ⟨S1x64, .f32⟩
  | .hbm, ⟨93, _⟩ => ⟨S1x64, .f32⟩
  | .hbm, ⟨94, _⟩ => ⟨S1x64, .f32⟩
  | .hbm, ⟨95, _⟩ => ⟨S_, .f32⟩
  | .hbm, ⟨96, _⟩ => ⟨S1x64, .f32⟩
  | .hbm, ⟨97, _⟩ => ⟨S1x64, .f32⟩
  | .hbm, ⟨98, _⟩ => ⟨S1x64, .f32⟩
  | .hbm, ⟨99, _⟩ => ⟨S1x64, .f32⟩
  | .hbm, ⟨100, _⟩ => ⟨S1x64, .f32⟩
  | .hbm, ⟨101, _⟩ => ⟨S1x64, .f32⟩
  | .hbm, ⟨102, _⟩ => ⟨S1x64, .f32⟩
  | .hbm, ⟨103, _⟩ => ⟨S1x64, .f32⟩
  | .hbm, ⟨104, _⟩ => ⟨S64, .f32⟩
  | .local _ .vmem, ⟨0, _⟩ => ⟨S2000x2, .f32⟩
  | .local _ .vmem, ⟨1, _⟩ => ⟨S2000x2, .f32⟩
  | .local _ .vmem, ⟨2, _⟩ => ⟨S2000x2, .f32⟩
  | .local _ .vmem, ⟨3, _⟩ => ⟨S2000x2, .f32⟩
  | .local _ .vmem, ⟨4, _⟩ => ⟨S2x64, .f32⟩
  | .local _ .vmem, ⟨5, _⟩ => ⟨S1x64, .f32⟩
  | .local _ .vmem, ⟨6, _⟩ => ⟨S2x64, .f32⟩
  | .local _ .vmem, ⟨7, _⟩ => ⟨S2000x64, .f32⟩
  | .local _ .vmem, ⟨8, _⟩ => ⟨S2000x64, .f32⟩
  | .local _ .vmem, ⟨9, _⟩ => ⟨S1x64, .f32⟩
  | .local _ .vmem, ⟨10, _⟩ => ⟨S1x64, .f32⟩
  | .local _ .vmem, ⟨11, _⟩ => ⟨S2000x64, .f32⟩
  | .local _ .vmem, ⟨12, _⟩ => ⟨S2000x64, .f32⟩
  | .local _ .vmem, ⟨13, _⟩ => ⟨S1x64, .f32⟩
  | .local _ .vmem, ⟨14, _⟩ => ⟨S1x64, .f32⟩
  | .local _ .vmem, ⟨15, _⟩ => ⟨S2000x64, .f32⟩
  | .local _ .vmem, ⟨16, _⟩ => ⟨S2000x64, .f32⟩
  | .local _ .vmem, ⟨17, _⟩ => ⟨S2000x64, .f32⟩
  | .local _ .vmem, ⟨18, _⟩ => ⟨S2000x64, .f32⟩
  | .local _ .vmem, ⟨19, _⟩ => ⟨S2000x64, .f32⟩
  | .local _ .vmem, ⟨20, _⟩ => ⟨S2000x64, .f32⟩
  | .local _ .vmem, ⟨21, _⟩ => ⟨S64x64, .f32⟩
  | .local _ .vmem, ⟨22, _⟩ => ⟨S1x64, .f32⟩
  | .local _ .vmem, ⟨23, _⟩ => ⟨S64x64, .f32⟩
  | .local _ .vmem, ⟨24, _⟩ => ⟨S2000x64, .f32⟩
  | .local _ .vmem, ⟨25, _⟩ => ⟨S2000x64, .f32⟩
  | .local _ .vmem, ⟨26, _⟩ => ⟨S1x64, .f32⟩
  | .local _ .vmem, ⟨27, _⟩ => ⟨S1x64, .f32⟩
  | .local _ .vmem, ⟨28, _⟩ => ⟨S2000x64, .f32⟩
  | .local _ .vmem, ⟨29, _⟩ => ⟨S2000x64, .f32⟩
  | .local _ .vmem, ⟨30, _⟩ => ⟨S1x64, .f32⟩
  | .local _ .vmem, ⟨31, _⟩ => ⟨S1x64, .f32⟩
  | .local _ .vmem, ⟨32, _⟩ => ⟨S1x64, .f32⟩
  | _, _ => ⟨S100000x2, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | _, _ => false

abbrev semScoped : Fin 0 → Bool
  | ⟨_, h⟩ => absurd h (Nat.not_lt_zero _)

abbrev dmaSemScoped : Fin 33 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | _ => false

abbrev sig : RefSig :=
  ofTc nBuf bufTy 0 33 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_cst : Ref sig .tc := ⟨.hbm, 16, rfl⟩
abbrev main_v4 : Ref sig .tc := ⟨.hbm, 17, rfl⟩
abbrev main_cst_0 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_cst_1 : Ref sig .tc := ⟨.hbm, 22, rfl⟩
abbrev main_v8 : Ref sig .tc := ⟨.hbm, 23, rfl⟩
abbrev main_v9 : Ref sig .tc := ⟨.hbm, 24, rfl⟩
abbrev main_cst_2 : Ref sig .tc := ⟨.hbm, 25, rfl⟩
abbrev main_v10 : Ref sig .tc := ⟨.hbm, 26, rfl⟩
abbrev main_v11 : Ref sig .tc := ⟨.hbm, 27, rfl⟩
abbrev main_c : Ref sig .tc := ⟨.hbm, 28, rfl⟩
abbrev main_v12 : Ref sig .tc := ⟨.hbm, 29, rfl⟩
abbrev main_v13 : Ref sig .tc := ⟨.hbm, 30, rfl⟩
abbrev main_c_3 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_cst_4 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26_0 : Ref sig .tc := ⟨.hbm, 45, rfl⟩
abbrev main_v26_1 : Ref sig .tc := ⟨.hbm, 46, rfl⟩
abbrev main_v26_2 : Ref sig .tc := ⟨.hbm, 47, rfl⟩
abbrev main_cst_5 : Ref sig .tc := ⟨.hbm, 48, rfl⟩
abbrev main_v27 : Ref sig .tc := ⟨.hbm, 49, rfl⟩
abbrev main_v28 : Ref sig .tc := ⟨.hbm, 50, rfl⟩
abbrev main_cst_6 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_cst_7 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_c_8 : Ref sig .tc := ⟨.hbm, 66, rfl⟩
abbrev main_v42 : Ref sig .tc := ⟨.hbm, 67, rfl⟩
abbrev main_v43 : Ref sig .tc := ⟨.hbm, 68, rfl⟩
abbrev main_c_9 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_cst_10 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56_0 : Ref sig .tc := ⟨.hbm, 83, rfl⟩
abbrev main_v56_1 : Ref sig .tc := ⟨.hbm, 84, rfl⟩
abbrev main_v56_2 : Ref sig .tc := ⟨.hbm, 85, rfl⟩
abbrev main_cst_11 : Ref sig .tc := ⟨.hbm, 86, rfl⟩
abbrev main_v57 : Ref sig .tc := ⟨.hbm, 87, rfl⟩
abbrev main_v58 : Ref sig .tc := ⟨.hbm, 88, rfl⟩
abbrev main_cst_12 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_cst_13 : Ref sig .tc := ⟨.hbm, 95, rfl⟩
abbrev main_v64 : Ref sig .tc := ⟨.hbm, 96, rfl⟩
abbrev main_v65 : Ref sig .tc := ⟨.hbm, 97, rfl⟩
abbrev main_v66 : Ref sig .tc := ⟨.hbm, 98, rfl⟩
abbrev main_v67 : Ref sig .tc := ⟨.hbm, 99, rfl⟩
abbrev main_v68 : Ref sig .tc := ⟨.hbm, 100, rfl⟩
abbrev main_v69 : Ref sig .tc := ⟨.hbm, 101, rfl⟩
abbrev main_v70 : Ref sig .tc := ⟨.hbm, 102, rfl⟩
abbrev main_v71 : Ref sig .tc := ⟨.hbm, 103, rfl⟩
abbrev main_v72 : Ref sig .tc := ⟨.hbm, 104, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg7_0 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg2_0 : Ref sig .tc := ⟨.vmem, 14, rfl⟩
abbrev cc1_stg3_0 : Ref sig .tc := ⟨.vmem, 15, rfl⟩
abbrev cc1_stg3_1 : Ref sig .tc := ⟨.vmem, 16, rfl⟩
abbrev cc2_stg0_0 : Ref sig .tc := ⟨.vmem, 17, rfl⟩
abbrev cc2_stg0_1 : Ref sig .tc := ⟨.vmem, 18, rfl⟩
abbrev cc2_stg1_0 : Ref sig .tc := ⟨.vmem, 19, rfl⟩
abbrev cc2_stg1_1 : Ref sig .tc := ⟨.vmem, 20, rfl⟩
abbrev cc2_stg2_0 : Ref sig .tc := ⟨.vmem, 21, rfl⟩
abbrev cc2_stg3_0 : Ref sig .tc := ⟨.vmem, 22, rfl⟩
abbrev cc2_stg4_0 : Ref sig .tc := ⟨.vmem, 23, rfl⟩
abbrev cc2_stg5_0 : Ref sig .tc := ⟨.vmem, 24, rfl⟩
abbrev cc2_stg5_1 : Ref sig .tc := ⟨.vmem, 25, rfl⟩
abbrev cc2_stg6_0 : Ref sig .tc := ⟨.vmem, 26, rfl⟩
abbrev cc2_stg7_0 : Ref sig .tc := ⟨.vmem, 27, rfl⟩
abbrev cc3_stg0_0 : Ref sig .tc := ⟨.vmem, 28, rfl⟩
abbrev cc3_stg0_1 : Ref sig .tc := ⟨.vmem, 29, rfl⟩
abbrev cc3_stg1_0 : Ref sig .tc := ⟨.vmem, 30, rfl⟩
abbrev cc3_stg2_0 : Ref sig .tc := ⟨.vmem, 31, rfl⟩
abbrev cc3_stg3_0 : Ref sig .tc := ⟨.vmem, 32, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem7_0 : DmaSem sig := 10
abbrev cc1_sem0_0 : DmaSem sig := 11
abbrev cc1_sem0_1 : DmaSem sig := 12
abbrev cc1_sem1_0 : DmaSem sig := 13
abbrev cc1_sem2_0 : DmaSem sig := 14
abbrev cc1_sem3_0 : DmaSem sig := 15
abbrev cc1_sem3_1 : DmaSem sig := 16
abbrev cc2_sem0_0 : DmaSem sig := 17
abbrev cc2_sem0_1 : DmaSem sig := 18
abbrev cc2_sem1_0 : DmaSem sig := 19
abbrev cc2_sem1_1 : DmaSem sig := 20
abbrev cc2_sem2_0 : DmaSem sig := 21
abbrev cc2_sem3_0 : DmaSem sig := 22
abbrev cc2_sem4_0 : DmaSem sig := 23
abbrev cc2_sem5_0 : DmaSem sig := 24
abbrev cc2_sem5_1 : DmaSem sig := 25
abbrev cc2_sem6_0 : DmaSem sig := 26
abbrev cc2_sem7_0 : DmaSem sig := 27
abbrev cc3_sem0_0 : DmaSem sig := 28
abbrev cc3_sem0_1 : DmaSem sig := 29
abbrev cc3_sem1_0 : DmaSem sig := 30
abbrev cc3_sem2_0 : DmaSem sig := 31
abbrev cc3_sem3_0 : DmaSem sig := 32

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S2000x2 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x2 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S2x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S2000x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S2000x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![50], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 2 → Memref sig .tc .vmem S2000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S64x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S64x64 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S2000x64 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev stage2_6 : Fin 1 → Memref sig .tc .vmem S1x64 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S1x64 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev grid3 : Pipeline.Grid := ⟨1, ![50], ![false]⟩

def k3_cond1 (i : grid3.Coords) : BitVec 1 :=
  let arg0 : BitVec 32 := BitVec.ofNat 32 (i 0).val
  let c0_i32 : BitVec 32 := 0#32
  let v14 : BitVec 1 := Scalar.cmpi .eq arg0 c0_i32
  let v15 : BitVec 32 := Scalar.extui v14
  let c0_i32_6 : BitVec 32 := 0#32
  let v16 : BitVec 1 := Scalar.cmpi .ne v15 c0_i32_6
  v16

def k3_cond2 (i : grid3.Coords) : BitVec 1 :=
  let arg0 : BitVec 32 := BitVec.ofNat 32 (i 0).val
  let c0_i32_7 : BitVec 32 := 0#32
  let v17 : BitVec 1 := Scalar.cmpi .ne arg0 c0_i32_7
  let v18 : BitVec 32 := Scalar.extui v17
  let c0_i32_8 : BitVec 32 := 0#32
  let v19 : BitVec 1 := Scalar.cmpi .ne v18 c0_i32_8
  v19

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage3_0 : Fin 2 → Memref sig .tc .vmem S2000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x64 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x64 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S_S100000x2 : S_.BroadcastsInDim S100000x2 (![] : Fin 0 → Fin S100000x2.rank)
  bcast_S100000_S100000x1_0 : S100000.BroadcastsInDim S100000x1 (![0] : Fin 1 → Fin S100000x1.rank)
  bcast_S100000x1_S100000x2_0_1 : S100000x1.BroadcastsInDim S100000x2 (![0, 1] : Fin 2 → Fin S100000x2.rank)
  shapeCasts_S64_S1x64 : S64.ShapeCasts S1x64
  inb_S1x64_S1x64_0_0 : ∀ a, (![0, 0] : Fin 2 → Nat) a + S1x64.size a ≤ S1x64.size a
  h_S1x64 : 0 < S1x64.numel
  inb_S2000x2_S2000x2_0_0 : ∀ a, (![0, 0] : Fin 2 → Nat) a + S2000x2.size a ≤ S2000x2.size a
  h_S2000x2 : 0 < S2000x2.numel
  shapeCasts_S2000x2_S2000x2 : S2000x2.ShapeCasts S2000x2
  bitsLt_bf16_f32 : FTy.bits .bf16 < FTy.bits .f32
  inb_S2x64_S2x64_0_0 : ∀ a, (![0, 0] : Fin 2 → Nat) a + S2x64.size a ≤ S2x64.size a
  h_S2x64 : 0 < S2x64.numel
  shapeCasts_S1x64_S1x64 : S1x64.ShapeCasts S1x64
  broadcasts_S1x64_S2000x64 : S1x64.Broadcasts S2000x64
  inb_S2000x64_S2000x64_0_0 : ∀ a, (![0, 0] : Fin 2 → Nat) a + S2000x64.size a ≤ S2000x64.size a
  h_S2000x64 : 0 < S2000x64.numel
  reduces_S2000x64_S64 : S2000x64.Reduces [0] S64
  bcast_S_S1x64 : S_.BroadcastsInDim S1x64 (![] : Fin 0 → Fin S1x64.rank)
  shapeCasts_S2000x64_S2000x64 : S2000x64.ShapeCasts S2000x64
  bcast_S_S100000x64 : S_.BroadcastsInDim S100000x64 (![] : Fin 0 → Fin S100000x64.rank)
  bcast_S100000x1_S100000x64_0_1 : S100000x1.BroadcastsInDim S100000x64 (![0, 1] : Fin 2 → Fin S100000x64.rank)
  inb_S64x64_S64x64_0_0 : ∀ a, (![0, 0] : Fin 2 → Nat) a + S64x64.size a ≤ S64x64.size a
  h_S64x64 : 0 < S64x64.numel
  shapeCasts_S1x64_S64 : S1x64.ShapeCasts S64
  scatter_S100000_S1600000x1_S1600000_n_0_0_1_wf : ScatterDims.WF S100000 S1600000x1 S1600000 [] [0] [0] 1
  gather_S100000x2_S1600000x1_S1600000x2_1_0_n_n_0_1_12_wf : GatherDims.WF S100000x2 S1600000x1 S1600000x2 [1] [0] [] [0] [] 1 ![1, 2]
  scatter_S100000x2_S1600000x1_S1600000x2_1_0_0_1_wf : ScatterDims.WF S100000x2 S1600000x1 S1600000x2 [1] [0] [0] 1
  dot_S2000x2_S2x64_S2000x64_1_0_0_1_n_n_wf : DotDims.WF S2000x2 S2x64 S2000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S2000x64_S64x64_S2000x64_1_0_0_1_n_n_wf : DotDims.WF S2000x64 S64x64 S2000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x2.size a ≤ S100000x2.size a
  hwx0_0 : ∀ i : grid0.Coords, EltTy.bits .f32 = 32 ∨ (Rect.block (s := S100000x2) S2000x2.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x2.size a ≤ S100000x2.size a
  hwx0_1 : ∀ i : grid0.Coords, EltTy.bits .f32 = 32 ∨ (Rect.block (s := S100000x2) S2000x2.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S2x64.size a ≤ S2x64.size a
  hwx0_2 : ∀ i : grid0.Coords, EltTy.bits .f32 = 32 ∨ (Rect.block (s := S2x64) S2x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x64.size a ≤ S1x64.size a
  hwx0_3 : ∀ i : grid0.Coords, EltTy.bits .f32 = 32 ∨ (Rect.block (s := S1x64) S1x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S2x64.size a ≤ S2x64.size a
  hwx0_4 : ∀ i : grid0.Coords, EltTy.bits .f32 = 32 ∨ (Rect.block (s := S2x64) S2x64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2000x64.size a ≤ S100000x64.size a
  hwx0_5 : ∀ i : grid0.Coords, EltTy.bits .f32 = 32 ∨ (Rect.block (s := S100000x64) S2000x64.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x64.size a ≤ S1x64.size a
  hwx0_6 : ∀ i : grid0.Coords, EltTy.bits .f32 = 32 ∨ (Rect.block (s := S1x64) S1x64.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x64.size a ≤ S1x64.size a
  hwx0_7 : ∀ i : grid0.Coords, EltTy.bits .f32 = 32 ∨ (Rect.block (s := S1x64) S1x64.size (cc0_transform_7 i) (hinb0_7 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x64.size a ≤ S100000x64.size a
  hwx1_0 : ∀ i : grid1.Coords, EltTy.bits .f32 = 32 ∨ (Rect.block (s := S100000x64) S2000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x64.size a ≤ S1x64.size a
  hwx1_1 : ∀ i : grid1.Coords, EltTy.bits .f32 = 32 ∨ (Rect.block (s := S1x64) S1x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x64.size a ≤ S1x64.size a
  hwx1_2 : ∀ i : grid1.Coords, EltTy.bits .f32 = 32 ∨ (Rect.block (s := S1x64) S1x64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2000x64.size a ≤ S100000x64.size a
  hwx1_3 : ∀ i : grid1.Coords, EltTy.bits .f32 = 32 ∨ (Rect.block (s := S100000x64) S2000x64.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x64.size a ≤ S100000x64.size a
  hwx2_0 : ∀ i : grid2.Coords, EltTy.bits .f32 = 32 ∨ (Rect.block (s := S100000x64) S2000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x64.size a ≤ S100000x64.size a
  hwx2_1 : ∀ i : grid2.Coords, EltTy.bits .f32 = 32 ∨ (Rect.block (s := S100000x64) S2000x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S64x64.size a ≤ S64x64.size a
  hwx2_2 : ∀ i : grid2.Coords, EltTy.bits .f32 = 32 ∨ (Rect.block (s := S64x64) S64x64.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x64.size a ≤ S1x64.size a
  hwx2_3 : ∀ i : grid2.Coords, EltTy.bits .f32 = 32 ∨ (Rect.block (s := S1x64) S1x64.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S64x64.size a ≤ S64x64.size a
  hwx2_4 : ∀ i : grid2.Coords, EltTy.bits .f32 = 32 ∨ (Rect.block (s := S64x64) S64x64.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S2000x64.size a ≤ S100000x64.size a
  hwx2_5 : ∀ i : grid2.Coords, EltTy.bits .f32 = 32 ∨ (Rect.block (s := S100000x64) S2000x64.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S1x64.size a ≤ S1x64.size a
  hwx2_6 : ∀ i : grid2.Coords, EltTy.bits .f32 = 32 ∨ (Rect.block (s := S1x64) S1x64.size (cc2_transform_6 i) (hinb2_6 i)).WholeWords (EltTy.packing .f32)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S1x64.size a ≤ S1x64.size a
  hwx2_7 : ∀ i : grid2.Coords, EltTy.bits .f32 = 32 ∨ (Rect.block (s := S1x64) S1x64.size (cc2_transform_7 i) (hinb2_7 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x64.size a ≤ S100000x64.size a
  hwx3_0 : ∀ i : grid3.Coords, EltTy.bits .f32 = 32 ∨ (Rect.block (s := S100000x64) S2000x64.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x64.size a ≤ S1x64.size a
  hwx3_1 : ∀ i : grid3.Coords, EltTy.bits .f32 = 32 ∨ (Rect.block (s := S1x64) S1x64.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x64.size a ≤ S1x64.size a
  hwx3_2 : ∀ i : grid3.Coords, EltTy.bits .f32 = 32 ∨ (Rect.block (s := S1x64) S1x64.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x64.size a ≤ S1x64.size a
  hwx3_3 : ∀ i : grid3.Coords, EltTy.bits .f32 = 32 ∨ (Rect.block (s := S1x64) S1x64.size (cc3_transform_3 i) (hinb3_3 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x2_S1600000x1_S1600000x2_1_0_n_n_0_1_12 : GatherDims S100000x2 S1600000x1 S1600000x2 where
  offsetDims := [1]
  collapsedSliceDims := [0]
  operandBatchingDims := []
  startIndicesBatchingDims := []
  startIndexMap := [0]
  indexVectorDim := 1
  sliceSizes := ![1, 2]
  wf := gather_S100000x2_S1600000x1_S1600000x2_1_0_n_n_0_1_12_wf
def scatter_S100000x2_S1600000x1_S1600000x2_1_0_0_1 : ScatterDims S100000x2 S1600000x1 S1600000x2 where
  updateWindowDims := [1]
  insertedWindowDims := [0]
  scatterDimsToOperandDims := [0]
  indexVectorDim := 1
  wf := scatter_S100000x2_S1600000x1_S1600000x2_1_0_0_1_wf
def dot_S2000x2_S2x64_S2000x64_1_0_0_1_n_n : DotDims S2000x2 S2x64 S2000x64 where
  lhsContracting := [1]
  rhsContracting := [0]
  lhsNonContracting := [0]
  rhsNonContracting := [1]
  lhsBatch := []
  rhsBatch := []
  wf := dot_S2000x2_S2x64_S2000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S2000x64_S64x64_S2000x64_1_0_0_1_n_n : DotDims S2000x64 S64x64 S2000x64 where
  lhsContracting := [1]
  rhsContracting := [0]
  lhsNonContracting := [0]
  rhsNonContracting := [1]
  lhsBatch := []
  rhsBatch := []
  wf := dot_S2000x64_S64x64_S2000x64_1_0_0_1_n_n_wf

abbrev win0_0 : Pipeline.Window sig grid0 :=
  Pipeline.Window.ofSpec (Memref.whole main_v24) S2000x2.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S2000x2.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S2x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v25) S1x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S2x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v26_0) S2000x64.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v26_1) S1x64.size cc0_transform_6 reads0_6 true true 1 stage0_6 sem0_6
    hrank0 hreads0_6 hinb0_6 nbuf0_6 (Memref.isWhole_whole _) hwx0_6 hstage0_6

abbrev win0_7 : Pipeline.Window sig grid0 :=
  Pipeline.Window.ofSpec (Memref.whole main_v26_2) S1x64.size cc0_transform_7 reads0_7 true true 1 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev win1_0 : Pipeline.Window sig grid1 :=
  Pipeline.Window.ofSpec (Memref.whole main_v26_0) S2000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v37) S1x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v40) S1x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v41) S2000x64.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v54) S2000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v41) S2000x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg5) S64x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v55) S1x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg7) S64x64.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v56_0) S2000x64.size cc2_transform_5 reads2_5 true false 2 stage2_5 sem2_5
    hrank2 hreads2_5 hinb2_5 nbuf2_5 (Memref.isWhole_whole _) hwx2_5 hstage2_5

abbrev win2_6 : Pipeline.Window sig grid2 :=
  Pipeline.Window.ofSpec (Memref.whole main_v56_1) S1x64.size cc2_transform_6 reads2_6 true true 1 stage2_6 sem2_6
    hrank2 hreads2_6 hinb2_6 nbuf2_6 (Memref.isWhole_whole _) hwx2_6 hstage2_6

abbrev win2_7 : Pipeline.Window sig grid2 :=
  Pipeline.Window.ofSpec (Memref.whole main_v56_2) S1x64.size cc2_transform_7 reads2_7 true true 1 stage2_7 sem2_7
    hrank2 hreads2_7 hinb2_7 nbuf2_7 (Memref.isWhole_whole _) hwx2_7 hstage2_7

abbrev win2 : Fin 8 → Pipeline.Window sig grid2 := fun | 0 => win2_0 | 1 => win2_1 | 2 => win2_2 | 3 => win2_3 | 4 => win2_4 | 5 => win2_5 | 6 => win2_6 | 7 => win2_7 | ⟨_ + 8, h⟩ => absurd h (Nat.not_lt.2 (Nat.le_add_left _ _))
abbrev spec2 : Fin 8 → Pipeline.WinSpec sig grid2.rank := fun w => (win2 w).toWinSpec

abbrev win3_0 : Pipeline.Window sig grid3 :=
  Pipeline.Window.ofSpec (Memref.whole main_v56_0) S2000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v67) S1x64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v70) S1x64.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v71) S1x64.size cc3_transform_3 reads3_3 true true 1 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev idle3 : Fin 4 → grid3.Coords → Bool := fun | 0 => fun _ => false | 1 => fun _ => false | 2 => fun _ => false | 3 => fun i => !(k3_cond1 i == 1#1) && !(k3_cond2 i == 1#1) | ⟨_ + 4, h⟩ => absurd h (Nat.not_lt.2 (Nat.le_add_left _ _))

class Facts : Prop extends Facts₀ where

variable [Facts]
-- ==== ReferenceIdeal.lean ====
abbrev S100000x2 : Shape := ⟨2, ![100000, 2]⟩
abbrev S2x1600000 : Shape := ⟨2, ![2, 1600000]⟩
abbrev S2x64 : Shape := ⟨2, ![2, 64]⟩
abbrev S64 : Shape := ⟨1, ![64]⟩
abbrev S64x64 : Shape := ⟨2, ![64, 64]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x2 : Shape := ⟨2, ![1600000, 2]⟩
abbrev S100000 : Shape := ⟨1, ![100000]⟩
abbrev S100000x1 : Shape := ⟨2, ![100000, 1]⟩
abbrev S100000x64 : Shape := ⟨2, ![100000, 64]⟩
abbrev S1x64 : Shape := ⟨2, ![1, 64]⟩
abbrev S1600000x64 : Shape := ⟨2, ![1600000, 64]⟩

abbrev nBuf : Space → Nat
  | .hbm => 146
  | .vmem => 0
  | .smem => 0
  | _ => 0

abbrev hbmTy0_0 (i : Nat) : BufTy := match i % 128 with
  | 0 => ⟨S100000x2, .f32⟩
  | 1 => ⟨S2x1600000, .i32⟩
  | 2 => ⟨S2x64, .f32⟩
  | 3 => ⟨S64, .f32⟩
  | 4 => ⟨S2x64, .f32⟩
  | 5 => ⟨S64x64, .f32⟩
  | 6 => ⟨S64, .f32⟩
  | 7 => ⟨S64x64, .f32⟩
  | 8 => ⟨S64, .f32⟩
  | 9 => ⟨S64, .f32⟩
  | 10 => ⟨S64, .f32⟩
  | 11 => ⟨S64, .f32⟩
  | 12 => ⟨S1x1600000, .i32⟩
  | 13 => ⟨S1600000, .i32⟩
  | 14 => ⟨S1x1600000, .i32⟩
  | 15 => ⟨S1600000, .i32⟩
  | 16 => ⟨S_, .i32⟩
  | 17 => ⟨S1600000, .i32⟩
  | 18 => ⟨S1600000, .i1⟩
  | 19 => ⟨S_, .i32⟩
  | 20 => ⟨S1600000, .i32⟩
  | 21 => ⟨S1600000, .i32⟩
  | 22 => ⟨S1600000, .i32⟩
  | 23 => ⟨S1600000x1, .i32⟩
  | 24 => ⟨S1600000x2, .f32⟩
  | 25 => ⟨S_, .f32⟩
  | 26 => ⟨S100000x2, .f32⟩
  | 27 => ⟨S1600000x1, .i32⟩
  | 28 => ⟨S100000x2, .f32⟩
  | 29 => ⟨S_, .f32⟩
  | 30 => ⟨S1600000, .f32⟩
  | 31 => ⟨S_, .f32⟩
  | 32 => ⟨S100000, .f32⟩
  | 33 => ⟨S1600000x1, .i32⟩
  | 34 => ⟨S100000, .f32⟩
  | 35 => ⟨S_, .f32⟩
  | 36 => ⟨S100000, .f32⟩
  | 37 => ⟨S100000, .f32⟩
  | 38 => ⟨S100000x1, .f32⟩
  | 39 => ⟨S100000x2, .f32⟩
  | 40 => ⟨S100000x2, .f32⟩
  | 41 => ⟨S100000x64, .f32⟩
  | 42 => ⟨S1x64, .f32⟩
  | 43 => ⟨S100000x64, .f32⟩
  | 44 => ⟨S100000x64, .f32⟩
  | 45 => ⟨S100000x64, .f32⟩
  | 46 => ⟨S100000x64, .f32⟩
  | 47 => ⟨S_, .f32⟩
  | 48 => ⟨S64, .f32⟩
  | 49 => ⟨S_, .f32⟩
  | 50 => ⟨S64, .f32⟩
  | 51 => ⟨S64, .f32⟩
  | 52 => ⟨S1x64, .f32⟩
  | 53 => ⟨S100000x64, .f32⟩
  | 54 => ⟨S100000x64, .f32⟩
  | 55 => ⟨S100000x64, .f32⟩
  | 56 => ⟨S_, .f32⟩
  | 57 => ⟨S64, .f32⟩
  | 58 => ⟨S_, .f32⟩
  | 59 => ⟨S64, .f32⟩
  | 60 => ⟨S64, .f32⟩
  | 61 => ⟨S1x64, .f32⟩
  | 62 => ⟨S100000x64, .f32⟩
  | 63 => ⟨S100000x64, .f32⟩
  | 64 => ⟨S_, .f32⟩
  | 65 => ⟨S64, .f32⟩
  | 66 => ⟨S64, .f32⟩
  | 67 => ⟨S64, .f32⟩
  | 68 => ⟨S1x64, .f32⟩
  | 69 => ⟨S100000x64, .f32⟩
  | 70 => ⟨S100000x64, .f32⟩
  | 71 => ⟨S1x64, .f32⟩
  | 72 => ⟨S100000x64, .f32⟩
  | 73 => ⟨S100000x64, .f32⟩
  | 74 => ⟨S1x64, .f32⟩
  | 75 => ⟨S100000x64, .f32⟩
  | 76 => ⟨S100000x64, .f32⟩
  | 77 => ⟨S_, .f32⟩
  | 78 => ⟨S100000x64, .f32⟩
  | 79 => ⟨S100000x64, .f32⟩
  | 80 => ⟨S_, .i32⟩
  | 81 => ⟨S1600000, .i32⟩
  | 82 => ⟨S1600000, .i1⟩
  | 83 => ⟨S_, .i32⟩
  | 84 => ⟨S1600000, .i32⟩
  | 85 => ⟨S1600000, .i32⟩
  | 86 => ⟨S1600000, .i32⟩
  | 87 => ⟨S1600000x1, .i32⟩
  | 88 => ⟨S1600000x64, .f32⟩
  | 89 => ⟨S_, .f32⟩
  | 90 => ⟨S100000x64, .f32⟩
  | 91 => ⟨S1600000x1, .i32⟩
  | 92 => ⟨S100000x64, .f32⟩
  | 93 => ⟨S_, .f32⟩
  | 94 => ⟨S1600000, .f32⟩
  | 95 => ⟨S_, .f32⟩
  | 96 => ⟨S100000, .f32⟩
  | 97 => ⟨S1600000x1, .i32⟩
  | 98 => ⟨S100000, .f32⟩
  | 99 => ⟨S_, .f32⟩
  | 100 => ⟨S100000, .f32⟩
  | 101 => ⟨S100000, .f32⟩
  | 102 => ⟨S100000x1, .f32⟩
  | 103 => ⟨S100000x64, .f32⟩
  | 104 => ⟨S100000x64, .f32⟩
  | 105 => ⟨S100000x64, .f32⟩
  | 106 => ⟨S1x64, .f32⟩
  | 107 => ⟨S100000x64, .f32⟩
  | 108 => ⟨S100000x64, .f32⟩
  | 109 => ⟨S100000x64, .f32⟩
  | 110 => ⟨S100000x64, .f32⟩
  | 111 => ⟨S_, .f32⟩
  | 112 => ⟨S64, .f32⟩
  | 113 => ⟨S_, .f32⟩
  | 114 => ⟨S64, .f32⟩
  | 115 => ⟨S64, .f32⟩
  | 116 => ⟨S1x64, .f32⟩
  | 117 => ⟨S100000x64, .f32⟩
  | 118 => ⟨S100000x64, .f32⟩
  | 119 => ⟨S100000x64, .f32⟩
  | 120 => ⟨S_, .f32⟩
  | 121 => ⟨S64, .f32⟩
  | 122 => ⟨S_, .f32⟩
  | 123 => ⟨S64, .f32⟩
  | 124 => ⟨S64, .f32⟩
  | 125 => ⟨S1x64, .f32⟩
  | 126 => ⟨S100000x64, .f32⟩
  | 127 => ⟨S100000x64, .f32⟩
  | _ => ⟨S100000x2, .f32⟩

abbrev hbmTy0_1 (i : Nat) : BufTy := match i % 128 with
  | 0 => ⟨S_, .f32⟩
  | 1 => ⟨S64, .f32⟩
  | 2 => ⟨S64, .f32⟩
  | 3 => ⟨S64, .f32⟩
  | 4 => ⟨S1x64, .f32⟩
  | 5 => ⟨S100000x64, .f32⟩
  | 6 => ⟨S100000x64, .f32⟩
  | 7 => ⟨S1x64, .f32⟩
  | 8 => ⟨S100000x64, .f32⟩
  | 9 => ⟨S100000x64, .f32⟩
  | 10 => ⟨S1x64, .f32⟩
  | 11 => ⟨S100000x64, .f32⟩
  | 12 => ⟨S100000x64, .f32⟩
  | 13 => ⟨S_, .f32⟩
  | 14 => ⟨S100000x64, .f32⟩
  | 15 => ⟨S100000x64, .f32⟩
  | 16 => ⟨S_, .f32⟩
  | 17 => ⟨S64, .f32⟩
  | _ => ⟨S100000x2, .f32⟩

abbrev hbmTy (i : Nat) : BufTy := match i / 128 with
  | 0 => hbmTy0_0 i
  | 1 => hbmTy0_1 i
  | _ => ⟨S100000x2, .f32⟩

abbrev bufTy : (tb : Table) → Fin (tcTables nBuf tb) → BufTy
  | .hbm, ⟨i, _⟩ => hbmTy i
  | _, _ => ⟨S100000x2, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_c : Ref sig .tc := ⟨.hbm, 16, rfl⟩
abbrev main_v4 : Ref sig .tc := ⟨.hbm, 17, rfl⟩
abbrev main_v5 : Ref sig .tc := ⟨.hbm, 18, rfl⟩
abbrev main_c_0 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_cst : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_cst_1 : Ref sig .tc := ⟨.hbm, 29, rfl⟩
abbrev main_v14 : Ref sig .tc := ⟨.hbm, 30, rfl⟩
abbrev main_cst_2 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_cst_3 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_cst_4 : Ref sig .tc := ⟨.hbm, 47, rfl⟩
abbrev main_v29 : Ref sig .tc := ⟨.hbm, 48, rfl⟩
abbrev main_cst_5 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_cst_6 : Ref sig .tc := ⟨.hbm, 56, rfl⟩
abbrev main_v36 : Ref sig .tc := ⟨.hbm, 57, rfl⟩
abbrev main_cst_7 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_cst_8 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_call0_cst : Ref sig .tc := ⟨.hbm, 77, rfl⟩
abbrev main_call0_v0 : Ref sig .tc := ⟨.hbm, 78, rfl⟩
abbrev main_v54 : Ref sig .tc := ⟨.hbm, 79, rfl⟩
abbrev main_c_9 : Ref sig .tc := ⟨.hbm, 80, rfl⟩
abbrev main_v55 : Ref sig .tc := ⟨.hbm, 81, rfl⟩
abbrev main_v56 : Ref sig .tc := ⟨.hbm, 82, rfl⟩
abbrev main_c_10 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_cst_11 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_cst_12 : Ref sig .tc := ⟨.hbm, 93, rfl⟩
abbrev main_v65 : Ref sig .tc := ⟨.hbm, 94, rfl⟩
abbrev main_cst_13 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_cst_14 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_cst_15 : Ref sig .tc := ⟨.hbm, 111, rfl⟩
abbrev main_v80 : Ref sig .tc := ⟨.hbm, 112, rfl⟩
abbrev main_cst_16 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_v85 : Ref sig .tc := ⟨.hbm, 118, rfl⟩
abbrev main_v86 : Ref sig .tc := ⟨.hbm, 119, rfl⟩
abbrev main_cst_17 : Ref sig .tc := ⟨.hbm, 120, rfl⟩
abbrev main_v87 : Ref sig .tc := ⟨.hbm, 121, rfl⟩
abbrev main_cst_18 : Ref sig .tc := ⟨.hbm, 122, rfl⟩
abbrev main_v88 : Ref sig .tc := ⟨.hbm, 123, rfl⟩
abbrev main_v89 : Ref sig .tc := ⟨.hbm, 124, rfl⟩
abbrev main_v90 : Ref sig .tc := ⟨.hbm, 125, rfl⟩
abbrev main_v91 : Ref sig .tc := ⟨.hbm, 126, rfl⟩
abbrev main_v92 : Ref sig .tc := ⟨.hbm, 127, rfl⟩
abbrev main_cst_19 : Ref sig .tc := ⟨.hbm, 128, rfl⟩
abbrev main_v93 : Ref sig .tc := ⟨.hbm, 129, rfl⟩
abbrev main_v94 : Ref sig .tc := ⟨.hbm, 130, rfl⟩
abbrev main_v95 : Ref sig .tc := ⟨.hbm, 131, rfl⟩
abbrev main_v96 : Ref sig .tc := ⟨.hbm, 132, rfl⟩
abbrev main_v97 : Ref sig .tc := ⟨.hbm, 133, rfl⟩
abbrev main_v98 : Ref sig .tc := ⟨.hbm, 134, rfl⟩
abbrev main_v99 : Ref sig .tc := ⟨.hbm, 135, rfl⟩
abbrev main_v100 : Ref sig .tc := ⟨.hbm, 136, rfl⟩
abbrev main_v101 : Ref sig .tc := ⟨.hbm, 137, rfl⟩
abbrev main_v102 : Ref sig .tc := ⟨.hbm, 138, rfl⟩
abbrev main_v103 : Ref sig .tc := ⟨.hbm, 139, rfl⟩
abbrev main_v104 : Ref sig .tc := ⟨.hbm, 140, rfl⟩
abbrev main_call1_cst : Ref sig .tc := ⟨.hbm, 141, rfl⟩
abbrev main_call1_v0 : Ref sig .tc := ⟨.hbm, 142, rfl⟩
abbrev main_v105 : Ref sig .tc := ⟨.hbm, 143, rfl⟩
abbrev main_cst_20 : Ref sig .tc := ⟨.hbm, 144, rfl⟩
abbrev main_v106 : Ref sig .tc := ⟨.hbm, 145, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x2 : S_.BroadcastsInDim S100000x2 (![] : Fin 0 → Fin S100000x2.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x2_0_1 : S100000x1.BroadcastsInDim S100000x2 (![0, 1] : Fin 2 → Fin S100000x2.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  reducesTo_S100000x64_S64_d0 : S100000x64.ReducesTo [0] S64
  h_S_ : 0 < S_.numel
  bcast_S_S64 : S_.BroadcastsInDim S64 (![] : Fin 0 → Fin S64.rank)
  bcast_S_S100000x64 : S_.BroadcastsInDim S100000x64 (![] : Fin 0 → Fin S100000x64.rank)
  bcast_S100000x1_S100000x64_0_1 : S100000x1.BroadcastsInDim S100000x64 (![0, 1] : Fin 2 → Fin S100000x64.rank)
  gather_S100000x2_S1600000x1_S1600000x2_1_0_n_n_0_1_12_wf : GatherDims.WF S100000x2 S1600000x1 S1600000x2 [1] [0] [] [0] [] 1 ![1, 2]
  scatter_S100000x2_S1600000x1_S1600000x2_1_0_0_1_wf : ScatterDims.WF S100000x2 S1600000x1 S1600000x2 [1] [0] [0] 1
  scatter_S100000_S1600000x1_S1600000_n_0_0_1_wf : ScatterDims.WF S100000 S1600000x1 S1600000 [] [0] [0] 1
  dot_S100000x2_S2x64_S100000x64_1_0_0_1_n_n_wf : DotDims.WF S100000x2 S2x64 S100000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S100000x64_S64x64_S100000x64_1_0_0_1_n_n_wf : DotDims.WF S100000x64 S64x64 S100000x64 [1] [0] [0] [1] [] []

variable [Facts₀]

def gather_S100000x2_S1600000x1_S1600000x2_1_0_n_n_0_1_12 : GatherDims S100000x2 S1600000x1 S1600000x2 where
  offsetDims := [1]
  collapsedSliceDims := [0]
  operandBatchingDims := []
  startIndicesBatchingDims := []
  startIndexMap := [0]
  indexVectorDim := 1
  sliceSizes := ![1, 2]
  wf := gather_S100000x2_S1600000x1_S1600000x2_1_0_n_n_0_1_12_wf
def scatter_S100000x2_S1600000x1_S1600000x2_1_0_0_1 : ScatterDims S100000x2 S1600000x1 S1600000x2 where
  updateWindowDims := [1]
  insertedWindowDims := [0]
  scatterDimsToOperandDims := [0]
  indexVectorDim := 1
  wf := scatter_S100000x2_S1600000x1_S1600000x2_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S100000x2_S2x64_S100000x64_1_0_0_1_n_n : DotDims S100000x2 S2x64 S100000x64 where
  lhsContracting := [1]
  rhsContracting := [0]
  lhsNonContracting := [0]
  rhsNonContracting := [1]
  lhsBatch := []
  rhsBatch := []
  wf := dot_S100000x2_S2x64_S100000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf

class Facts : Prop extends Facts₀ where

variable [Facts]
-- ==== Proof.KI.R0.lean ====
import proofs.«120156_j16690242912872_1_alg».proof.Proof.Gen.KernelIdeal.Launch
import proofs.«120156_j16690242912872_1_alg».proof.Proof.Gen.KernelIdeal.Skeleton
import proofs.«120156_j16690242912872_1_alg».proof.Proof.Gen.KernelIdeal.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

def hblk0 (c : Dev nD) (t : Fin cfg0.N) : Vec F S2000x64 .f32 :=
  k0_pay3 (iblk0 V c 0 t) (iblk0 V c 1 t) (iblk0 V c 2 t) (iblk0 V c 4 t) (iblk0 V c 3 t)

def sumAt0 (c : Dev nD) : (n : ℕ) → n < cfg0.N → Vec F S1x64 .f32
  | 0, hn => k0_pay4 (iblk0 V c 0 ⟨0, hn⟩) (iblk0 V c 1 ⟨0, hn⟩) (iblk0 V c 2 ⟨0, hn⟩) (iblk0 V c 4 ⟨0, hn⟩) (iblk0 V c 3 ⟨0, hn⟩) (k0_pay1 (F := F))
  | n + 1, hn => k0_pay4 (iblk0 V c 0 ⟨n + 1, hn⟩) (iblk0 V c 1 ⟨n + 1, hn⟩) (iblk0 V c 2 ⟨n + 1, hn⟩) (iblk0 V c 4 ⟨n + 1, hn⟩) (iblk0 V c 3 ⟨n + 1, hn⟩)
      (sumAt0 c n (Nat.lt_of_succ_lt hn))

def sqAt0 (c : Dev nD) : (n : ℕ) → n < cfg0.N → Vec F S1x64 .f32
  | 0, hn => k0_pay5 (iblk0 V c 0 ⟨0, hn⟩) (iblk0 V c 1 ⟨0, hn⟩) (iblk0 V c 2 ⟨0, hn⟩) (iblk0 V c 4 ⟨0, hn⟩) (iblk0 V c 3 ⟨0, hn⟩) (k0_pay2 (F := F))
  | n + 1, hn => k0_pay5 (iblk0 V c 0 ⟨n + 1, hn⟩) (iblk0 V c 1 ⟨n + 1, hn⟩) (iblk0 V c 2 ⟨n + 1, hn⟩) (iblk0 V c 4 ⟨n + 1, hn⟩) (iblk0 V c 3 ⟨n + 1, hn⟩)
      (sqAt0 c n (Nat.lt_of_succ_lt hn))

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => hblk0 V c t
    | ⟨6, _⟩ => sumAt0 V c t.val t.isLt
    | ⟨7, _⟩ => sqAt0 V c t.val t.isLt
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = hblk0 V c t := by dsimp only [dat0]
theorem after0_6 (c : Dev nD) (t : Fin cfg0.N) : (dat0 V c).after 6 t = sumAt0 V c t.val t.isLt := by dsimp only [dat0]
theorem after0_7 (c : Dev nD) (t : Fin cfg0.N) : (dat0 V c).after 7 t = sqAt0 V c t.val t.isLt := by dsimp only [dat0]

theorem hz0 : (![0, 0] : Fin 2 → Nat) = fun _ => 0 := funext fun a => by fin_cases a <;> rfl

theorem read_writes_whole {κ : Kind} {sp : Space} {S : Shape} {e : EltTy} (v : View sig κ sp S e) (f : v.ty.Contents (Elt F))
    {off : Fin S.rank → Nat} (h : off = fun _ => 0) (inb : ∀ a, off a + S.size a ≤ S.size a) (w : S.Idx → Elt F e)
    (L : List (View.Piece (Elt F) S e)) :
    v.read (Elt F) (v.writes (Elt F) f ((⟨Rect.unit off S.size inb, w⟩ : View.Piece (Elt F) S e) :: L)) = w := by
  rw [View.read_writes_eq_canon _ _ _ (fun y => ⟨_, List.mem_cons_self, View.mem_set_unit_zero h inb y⟩),
    View.canon_cons_unit_zero h]

theorem readAt_whole {κ : Kind} {sp : Space} {S : Shape} {e : EltTy} (v : View sig κ sp S e) (f : v.ty.Contents (Elt F))
    {off : Fin S.rank → Nat} (h : off = fun _ => 0) (inb : ∀ a, off a + S.size a ≤ S.size a) :
    v.readAt (Elt F) (Rect.unit off S.size inb).toLoadRect f = v.read (Elt F) f := by
  rw [View.readAt_eq_ld, View.ld_unit_zero h]

abbrev cond0 (i : grid0.Coords) : Prop :=
  (Scalar.cmpi .ne (Scalar.extui (Scalar.cmpi .eq (BitVec.ofNat 32 (i 0).val) 0#32)) 0#32) = 1#1

theorem hcond0 : ∀ t : Fin cfg0.N, cond0 (grid0.coords t) ↔ t.val = 0 :=
  (by decide +kernel : ∀ t : Fin grid0.N, cond0 (grid0.coords t) ↔ t.val = 0)

set_option maxHeartbeats 1000000 in

theorem sound_kernel0_first (c : Dev nD) (E : Set ℕ) (i : grid0.Coords) (hi : cond0 i)
    (arg1 : Memref sig .tc .vmem S2000x2 .f32) (harg1 : arg1.IsWhole) (arg2 : Memref sig .tc .vmem S2000x2 .f32) (harg2 : arg2.IsWhole)
    (arg3 : Memref sig .tc .vmem S2x64 .f32) (harg3 : arg3.IsWhole) (arg4 : Memref sig .tc .vmem S1x64 .f32) (harg4 : arg4.IsWhole)
    (arg5 : Memref sig .tc .vmem S2x64 .f32) (harg5 : arg5.IsWhole) (arg6 : Memref sig .tc .vmem S2000x64 .f32) (harg6 : arg6.IsWhole)
    (arg7 : Memref sig .tc .vmem S1x64 .f32) (harg7 : arg7.IsWhole) (arg8 : Memref sig .tc .vmem S1x64 .f32) (harg8 : arg8.IsWhole)
    (x0 x1 : Vec F S2000x2 .f32) (x2 : Vec F S2x64 .f32) (x3 : Vec F S1x64 .f32) (x4 : Vec F S2x64 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4
        ∗ (∃ d, owns (c : Thread nD τ) arg6 fullShare d) ∗ (∃ d, owns (c : Thread nD τ) arg7 fullShare d) ∗ (∃ d, owns (c : Thread nD τ) arg8 fullShare d)
        ∗ (iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4
            ∗ owns (c : Thread nD τ) arg6 fullShare (k0_pay3 x0 x1 x2 x4 x3)
            ∗ owns (c : Thread nD τ) arg7 fullShare (k0_pay4 x0 x1 x2 x4 x3 (k0_pay1 (F := F)))
            ∗ owns (c : Thread nD τ) arg8 fullShare (k0_pay5 x0 x1 x2 x4 x3 (k0_pay2 (F := F)))) -∗ K ⟨⟩))
      ⊢ wp frame (wpE (defs₀ (F := F)) Variants.none c none) E (cc0__linear_stats_kernel i arg1 harg1 arg2 harg2 arg3 harg3 arg4 harg4 arg5 harg5 arg6 harg6 arg7 harg7 arg8 harg8) K := by
  simp only [cc0__linear_stats_kernel_eq_skeleton]; unfold cc0__linear_stats_kernel_skel
  simp only [k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, Hk⟩
  subst hf0 hf1 hf2 hf3 hf4
  sl_exec (disch := first | exact hi)
  sl_step
  iapply Hk
  isplitl [H0]; · iexists f0; isplitr; · ipureintro; rfl
                  iexact H0
  isplitl [H1]; · iexists f1; isplitr; · ipureintro; rfl
                  iexact H1
  isplitl [H2]; · iexists f2; isplitr; · ipureintro; rfl
                  iexact H2
  isplitl [H3]; · iexists f3; isplitr; · ipureintro; rfl
                  iexact H3
  isplitl [H4]; · iexists f4; isplitr; · ipureintro; rfl
                  iexact H4
  isplitl [H5]
  · iexists _; isplitr
    swap; · iexact H5
    ipureintro
    refine (read_writes_whole _ _ hz0 _ _ _).trans ?_
    simp only [readAt_whole (S := S2000x2) _ _ hz0, readAt_whole (S := S2x64) _ _ hz0, readAt_whole (S := S1x64) _ _ hz0]
  isplitl [H6]
  · iexists _; isplitr
    swap; · iexact H6
    ipureintro
    sl_unfold_run_names
    refine (read_writes_whole _ _ hz0 _ _ _).trans ?_
    simp only [readAt_whole (S := S2000x2) _ _ hz0, readAt_whole (S := S2x64) _ _ hz0, readAt_whole (S := S1x64) _ _ hz0, View.readCov_unit_zero (S := S1x64) _ hz0]
  iexists _; isplitr
  swap; · iexact H7
  ipureintro
  sl_unfold_run_names
  refine (read_writes_whole _ _ hz0 _ _ _).trans ?_
  simp only [readAt_whole (S := S2000x2) _ _ hz0, readAt_whole (S := S2x64) _ _ hz0, readAt_whole (S := S1x64) _ _ hz0, View.readCov_unit_zero (S := S1x64) _ hz0]

set_option maxHeartbeats 1000000 in

theorem sound_kernel0_later (c : Dev nD) (E : Set ℕ) (i : grid0.Coords) (hi : ¬cond0 i)
    (arg1 : Memref sig .tc .vmem S2000x2 .f32) (harg1 : arg1.IsWhole) (arg2 : Memref sig .tc .vmem S2000x2 .f32) (harg2 : arg2.IsWhole)
    (arg3 : Memref sig .tc .vmem S2x64 .f32) (harg3 : arg3.IsWhole) (arg4 : Memref sig .tc .vmem S1x64 .f32) (harg4 : arg4.IsWhole)
    (arg5 : Memref sig .tc .vmem S2x64 .f32) (harg5 : arg5.IsWhole) (arg6 : Memref sig .tc .vmem S2000x64 .f32) (harg6 : arg6.IsWhole)
    (arg7 : Memref sig .tc .vmem S1x64 .f32) (harg7 : arg7.IsWhole) (arg8 : Memref sig .tc .vmem S1x64 .f32) (harg8 : arg8.IsWhole)
    (x0 x1 : Vec F S2000x2 .f32) (x2 : Vec F S2x64 .f32) (x3 : Vec F S1x64 .f32) (x4 : Vec F S2x64 .f32) (s q : Vec F S1x64 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4
        ∗ (∃ d, owns (c : Thread nD τ) arg6 fullShare d) ∗ owns (c : Thread nD τ) arg7 fullShare s ∗ owns (c : Thread nD τ) arg8 fullShare q
        ∗ (iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4
            ∗ owns (c : Thread nD τ) arg6 fullShare (k0_pay3 x0 x1 x2 x4 x3)
            ∗ owns (c : Thread nD τ) arg7 fullShare (k0_pay4 x0 x1 x2 x4 x3 s)
            ∗ owns (c : Thread nD τ) arg8 fullShare (k0_pay5 x0 x1 x2 x4 x3 q)) -∗ K ⟨⟩))
      ⊢ wp frame (wpE (defs₀ (F := F)) Variants.none c none) E (cc0__linear_stats_kernel i arg1 harg1 arg2 harg2 arg3 harg3 arg4 harg4 arg5 harg5 arg6 harg6 arg7 harg7 arg8 harg8) K := by
  simp only [cc0__linear_stats_kernel_eq_skeleton]; unfold cc0__linear_stats_kernel_skel
  simp only [k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%f6, %hf6, H6⟩, ⟨%f7, %hf7, H7⟩, Hk⟩
  subst hf0 hf1 hf2 hf3 hf4 hf6 hf7
  sl_exec (disch := first | exact hi)
  sl_step
  iapply Hk
  isplitl [H0]; · iexists f0; isplitr; · ipureintro; rfl
                  iexact H0
  isplitl [H1]; · iexists f1; isplitr; · ipureintro; rfl
                  iexact H1
  isplitl [H2]; · iexists f2; isplitr; · ipureintro; rfl
                  iexact H2
  isplitl [H3]; · iexists f3; isplitr; · ipureintro; rfl
                  iexact H3
  isplitl [H4]; · iexists f4; isplitr; · ipureintro; rfl
                  iexact H4
  isplitl [H5]
  · iexists _; isplitr
    swap; · iexact H5
    ipureintro
    refine (read_writes_whole _ _ hz0 _ _ _).trans ?_
    simp only [readAt_whole (S := S2000x2) _ _ hz0, readAt_whole (S := S2x64) _ _ hz0, readAt_whole (S := S1x64) _ _ hz0]
  isplitl [H6]
  · iexists _; isplitr
    swap; · iexact H6
    ipureintro
    refine (read_writes_whole _ _ hz0 _ _ _).trans ?_
    simp only [readAt_whole (S := S2000x2) _ _ hz0, readAt_whole (S := S2x64) _ _ hz0, readAt_whole (S := S1x64) _ _ hz0]
  iexists _; isplitr
  swap; · iexact H7
  ipureintro
  sl_unfold_run_names
  refine (read_writes_whole _ _ hz0 _ _ _).trans ?_
  simp only [readAt_whole (S := S2000x2) _ _ hz0, readAt_whole (S := S2x64) _ _ hz0, readAt_whole (S := S1x64) _ _ hz0]

theorem before0_0 (c : Dev nD) (t : Fin cfg0.N) (d) : (dat0 V c).before 0 t d = iblk0 V c 0 t :=
  ((dat0 V c).before_in_eq_fetched 0 rfl (fun _ => rfl) (fun _ _ _ => rfl)
    (fun t => by rw [after0_0]; unfold Dat.blockOf iblk0; rw [A_eq0]; try rfl) t d).trans
    (by unfold Dat.fetched Dat.blockOf iblk0; rw [A_eq0]; try rfl)

theorem before0_1 (c : Dev nD) (t : Fin cfg0.N) (d) : (dat0 V c).before 1 t d = iblk0 V c 1 t :=
  ((dat0 V c).before_in_eq_fetched 1 rfl (fun _ => rfl) (fun _ _ _ => rfl)
    (fun t => by rw [after0_1]; unfold Dat.blockOf iblk0; rw [A_eq0]; try rfl) t d).trans
    (by unfold Dat.fetched Dat.blockOf iblk0; rw [A_eq0]; try rfl)

theorem before0_2 (c : Dev nD) (t : Fin cfg0.N) (d) : (dat0 V c).before 2 t d = iblk0 V c 2 t :=
  ((dat0 V c).before_in_eq_fetched 2 rfl (fun _ => rfl) (fun _ _ _ => rfl)
    (fun t => by rw [after0_2]; unfold Dat.blockOf iblk0; rw [A_eq0]; try rfl) t d).trans
    (by unfold Dat.fetched Dat.blockOf iblk0; rw [A_eq0]; try rfl)

theorem before0_3 (c : Dev nD) (t : Fin cfg0.N) (d) : (dat0 V c).before 3 t d = iblk0 V c 3 t :=
  ((dat0 V c).before_in_eq_fetched 3 rfl (fun _ => rfl) (fun _ _ _ => rfl)
    (fun t => by rw [after0_3]; unfold Dat.blockOf iblk0; rw [A_eq0]; try rfl) t d).trans
    (by unfold Dat.fetched Dat.blockOf iblk0; rw [A_eq0]; try rfl)

theorem before0_4 (c : Dev nD) (t : Fin cfg0.N) (d) : (dat0 V c).before 4 t d = iblk0 V c 4 t :=
  ((dat0 V c).before_in_eq_fetched 4 rfl (fun _ => rfl) (fun _ _ _ => rfl)
    (fun t => by rw [after0_4]; unfold Dat.blockOf iblk0; rw [A_eq0]; try rfl) t d).trans
    (by unfold Dat.fetched Dat.blockOf iblk0; rw [A_eq0]; try rfl)

theorem before0_6_later (c : Dev nD) (t : Fin cfg0.N) (h0 : t.val ≠ 0) (d) :
    (dat0 V c).before 6 t d = sumAt0 V c (t.val - 1) (Nat.lt_of_le_of_lt (Nat.sub_le _ _) t.isLt) := by
  have hN : t.val < 50 := lt_of_lt_of_eq t.isLt (show cfg0.N = 50 from N_0)
  rw [Dat.before_out_kept _ 6 rfl t h0 (Bool.eq_false_iff.mpr fun h => by have := (flush0_6 _).mp h; dsimp only at this; omega)
    (fun _ => rfl) (fun _ _ => rfl)]
  dsimp only [dat0]

theorem before0_7_later (c : Dev nD) (t : Fin cfg0.N) (h0 : t.val ≠ 0) (d) :
    (dat0 V c).before 7 t d = sqAt0 V c (t.val - 1) (Nat.lt_of_le_of_lt (Nat.sub_le _ _) t.isLt) := by
  have hN : t.val < 50 := lt_of_lt_of_eq t.isLt (show cfg0.N = 50 from N_0)
  rw [Dat.before_out_kept _ 7 rfl t h0 (Bool.eq_false_iff.mpr fun h => by have := (flush0_7 _).mp h; dsimp only at this; omega)
    (fun _ => rfl) (fun _ _ => rfl)]
  dsimp only [dat0]

theorem sumAt0_first (c : Dev nD) (t : Fin cfg0.N) (h0 : t.val = 0) :
    sumAt0 V c t.val t.isLt = k0_pay4 (iblk0 V c 0 t) (iblk0 V c 1 t) (iblk0 V c 2 t) (iblk0 V c 4 t) (iblk0 V c 3 t) (k0_pay1 (F := F)) := by
  obtain ⟨n, hn⟩ := t
  cases n with
  | zero => rfl
  | succ n => exact absurd h0 (Nat.succ_ne_zero n)

theorem sumAt0_later (c : Dev nD) (t : Fin cfg0.N) (h0 : t.val ≠ 0) :
    sumAt0 V c t.val t.isLt = k0_pay4 (iblk0 V c 0 t) (iblk0 V c 1 t) (iblk0 V c 2 t) (iblk0 V c 4 t) (iblk0 V c 3 t)
      (sumAt0 V c (t.val - 1) (Nat.lt_of_le_of_lt (Nat.sub_le _ _) t.isLt)) := by
  obtain ⟨n, hn⟩ := t
  cases n with
  | zero => exact absurd rfl h0
  | succ n => rfl

theorem sqAt0_first (c : Dev nD) (t : Fin cfg0.N) (h0 : t.val = 0) :
    sqAt0 V c t.val t.isLt = k0_pay5 (iblk0 V c 0 t) (iblk0 V c 1 t) (iblk0 V c 2 t) (iblk0 V c 4 t) (iblk0 V c 3 t) (k0_pay2 (F := F)) := by
  obtain ⟨n, hn⟩ := t
  cases n with
  | zero => rfl
  | succ n => exact absurd h0 (Nat.succ_ne_zero n)

theorem sqAt0_later (c : Dev nD) (t : Fin cfg0.N) (h0 : t.val ≠ 0) :
    sqAt0 V c t.val t.isLt = k0_pay5 (iblk0 V c 0 t) (iblk0 V c 1 t) (iblk0 V c 2 t) (iblk0 V c 4 t) (iblk0 V c 3 t)
      (sqAt0 V c (t.val - 1) (Nat.lt_of_le_of_lt (Nat.sub_le _ _) t.isLt)) := by
  obtain ⟨n, hn⟩ := t
  cases n with
  | zero => exact absurd rfl h0
  | succ n => rfl

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t))

set_option maxHeartbeats 1000000 in

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7]
  unfold hblk0
  by_cases h0 : t.val = 0
  · rw [sumAt0_first V c t h0, sqAt0_first V c t h0]
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
    iapply (sound_kernel0_first c Set.univ (grid0.coords t) ((hcond0 t).mpr h0) _ _ _ _ _ _ _ _ _ _ _ _ _ _ _ _
      (iblk0 V c 0 t) (iblk0 V c 1 t) (iblk0 V c 2 t) (iblk0 V c 3 t) (iblk0 V c 4 t) _)
    iframe H0 H1 H2 H3 H4
    isplitl [H5]; · iexists _; iexact H5
    isplitl [H6]; · iexists _; iexact H6
    isplitl [H7]; · iexists _; iexact H7
    iintro ⟨H0, H1, H2, H3, H4, H5, H6, H7⟩
    isplitl [HΦ]; · iexact HΦ
    iframe
  · rw [sumAt0_later V c t h0, sqAt0_later V c t h0]
    simp only [before0_6_later V c t h0, before0_7_later V c t h0]
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
    iapply (sound_kernel0_later c Set.univ (grid0.coords t) (fun h => h0 ((hcond0 t).mp h)) _ _ _ _ _ _ _ _ _ _ _ _ _ _ _ _
      (iblk0 V c 0 t) (iblk0 V c 1 t) (iblk0 V c 2 t) (iblk0 V c 3 t) (iblk0 V c 4 t)
      (sumAt0 V c (t.val - 1) (Nat.lt_of_le_of_lt (Nat.sub_le _ _) t.isLt))
      (sqAt0 V c (t.val - 1) (Nat.lt_of_le_of_lt (Nat.sub_le _ _) t.isLt)) _)
    iframe H0 H1 H2 H3 H4
    isplitl [H5]; · iexists _; iexact H5
    iframe H6 H7
    iintro ⟨H0, H1, H2, H3, H4, H5, H6, H7⟩
    isplitl [HΦ]; · iexact HΦ
    iframe

theorem body_obligation0 (c : Dev nD) : BodyObligation (dat0 (F := F) V c) (defs₀ (F := F)) Variants.none () Set.univ := by
  intro t
  rw [bigSep_W0, bigSep_W0]
  exact sound_body0 V c t

end Cert.KernelIdeal.Hand

end
-- ==== Proof.KI.R1.lean ====
import proofs.«120156_j16690242912872_1_alg».proof.Proof.Gen.KernelIdeal.Launch
import proofs.«120156_j16690242912872_1_alg».proof.Proof.Gen.KernelIdeal.Skeleton
import proofs.«120156_j16690242912872_1_alg».proof.Proof.Gen.KernelIdeal.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

def out1_3 (c : Dev nD) (t : Fin cfg1.N) : Vec F S2000x64 .f32 :=
  k1_pay1 (iblk1 V c 0 t) (iblk1 V c 1 t) (iblk1 V c 2 t)

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 V c t
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = out1_3 V c t := by dsimp only [dat1]

theorem before1_0 (c : Dev nD) (t : Fin cfg1.N) (d) : (dat1 V c).before 0 t d = iblk1 V c 0 t :=
  ((dat1 V c).before_in_eq_fetched 0 rfl (fun _ => rfl) (fun _ _ _ => rfl)
    (fun t => by rw [after1_0]; unfold Dat.blockOf iblk1; rw [A_eq1]; try rfl) t d).trans
    (by unfold Dat.fetched Dat.blockOf iblk1; rw [A_eq1]; try rfl)

theorem before1_1 (c : Dev nD) (t : Fin cfg1.N) (d) : (dat1 V c).before 1 t d = iblk1 V c 1 t :=
  ((dat1 V c).before_in_eq_fetched 1 rfl (fun _ => rfl) (fun _ _ _ => rfl)
    (fun t => by rw [after1_1]; unfold Dat.blockOf iblk1; rw [A_eq1]; try rfl) t d).trans
    (by unfold Dat.fetched Dat.blockOf iblk1; rw [A_eq1]; try rfl)

theorem before1_2 (c : Dev nD) (t : Fin cfg1.N) (d) : (dat1 V c).before 2 t d = iblk1 V c 2 t :=
  ((dat1 V c).before_in_eq_fetched 2 rfl (fun _ => rfl) (fun _ _ _ => rfl)
    (fun t => by rw [after1_2]; unfold Dat.blockOf iblk1; rw [A_eq1]; try rfl) t d).trans
    (by unfold Dat.fetched Dat.blockOf iblk1; rw [A_eq1]; try rfl)

theorem zeros_big : (![0, 0] : Fin S2000x64.rank → Nat) = fun _ => 0 := by funext a; fin_cases a <;> rfl
theorem zeros_row : (![0, 0] : Fin S1x64.rank → Nat) = fun _ => 0 := by funext a; fin_cases a <;> rfl

set_option maxHeartbeats 1000000 in

theorem sound_kernel1 (c : Dev nD) (E : Set ℕ) (i : grid1.Coords)
    (arg1 : Memref sig .tc .vmem S2000x64 .f32) (harg1 : arg1.IsWhole) (arg2 : Memref sig .tc .vmem S1x64 .f32) (harg2 : arg2.IsWhole)
    (arg3 : Memref sig .tc .vmem S1x64 .f32) (harg3 : arg3.IsWhole) (arg4 : Memref sig .tc .vmem S2000x64 .f32) (harg4 : arg4.IsWhole)
    (x0 : Vec F S2000x64 .f32) (x1 : Vec F S1x64 .f32) (x2 : Vec F S1x64 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (k1_pay1 x0 x1 x2)) -∗ K ⟨⟩))
      ⊢ wp frame (wpE (defs₀ (F := F)) Variants.none c none) E (cc1__norm_relu_kernel i arg1 harg1 arg2 harg2 arg3 harg3 arg4 harg4) K := by
  simp only [cc1__norm_relu_kernel_eq_skeleton]; unfold cc1__norm_relu_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  rw [View.read_writes_eq_canon _ _ _
      (fun y => ⟨_, List.mem_singleton_self _, View.mem_set_unit_zero zeros_big inb_S2000x64_S2000x64_0_0 y⟩),
    View.canon_unit_zero zeros_big inb_S2000x64_S2000x64_0_0]
  simp only [View.readAt_eq_ld]
  rw [View.ld_unit_zero zeros_big inb_S2000x64_S2000x64_0_0, View.ld_unit_zero zeros_row inb_S1x64_S1x64_0_0,
    View.ld_unit_zero zeros_row inb_S1x64_S1x64_0_0]

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  unfold out1_3
  iintro ⟨HΦ, Ho, ⟨%d0, H0⟩, ⟨%d1, H1⟩, ⟨%d2, H2⟩, ⟨%d3, H3⟩⟩
  iapply (sound_kernel1 c Set.univ _ _ _ _ _ _ _ _ _ (iblk1 V c 0 t) (iblk1 V c 1 t) (iblk1 V c 2 t) _)
  iframe H0 H1 H2
  isplitl [H3]; · iexists _; iexact H3
  iintro ⟨H0, H1, H2, H3⟩
  iframe

theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.KI.R2.lean ====
import proofs.«120156_j16690242912872_1_alg».proof.Proof.Gen.KernelIdeal.Launch
import proofs.«120156_j16690242912872_1_alg».proof.Proof.Gen.KernelIdeal.Skeleton
import proofs.«120156_j16690242912872_1_alg».proof.Proof.Gen.KernelIdeal.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

def hblk2 (c : Dev nD) (t : Fin cfg2.N) : Vec F S2000x64 .f32 :=
  k2_pay4 (iblk2 V c 0 t) (iblk2 V c 1 t) (iblk2 V c 2 t) (iblk2 V c 4 t) (iblk2 V c 3 t)

def sumAt2 (c : Dev nD) : (n : ℕ) → n < cfg2.N → Vec F S1x64 .f32
  | 0, hn => k2_pay5 (iblk2 V c 0 ⟨0, hn⟩) (iblk2 V c 1 ⟨0, hn⟩) (iblk2 V c 2 ⟨0, hn⟩) (iblk2 V c 4 ⟨0, hn⟩) (iblk2 V c 3 ⟨0, hn⟩) (k2_pay2 (F := F))
  | n + 1, hn => k2_pay5 (iblk2 V c 0 ⟨n + 1, hn⟩) (iblk2 V c 1 ⟨n + 1, hn⟩) (iblk2 V c 2 ⟨n + 1, hn⟩) (iblk2 V c 4 ⟨n + 1, hn⟩) (iblk2 V c 3 ⟨n + 1, hn⟩)
      (sumAt2 c n (Nat.lt_of_succ_lt hn))

def sqAt2 (c : Dev nD) : (n : ℕ) → n < cfg2.N → Vec F S1x64 .f32
  | 0, hn => k2_pay1 (k2_pay6 (k2_pay3 (F := F)))
      (k2_pay7 (iblk2 V c 0 ⟨0, hn⟩) (iblk2 V c 1 ⟨0, hn⟩) (iblk2 V c 2 ⟨0, hn⟩) (iblk2 V c 4 ⟨0, hn⟩) (iblk2 V c 3 ⟨0, hn⟩))
  | n + 1, hn => k2_pay1 (k2_pay6 (sqAt2 c n (Nat.lt_of_succ_lt hn)))
      (k2_pay7 (iblk2 V c 0 ⟨n + 1, hn⟩) (iblk2 V c 1 ⟨n + 1, hn⟩) (iblk2 V c 2 ⟨n + 1, hn⟩) (iblk2 V c 4 ⟨n + 1, hn⟩) (iblk2 V c 3 ⟨n + 1, hn⟩))

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => hblk2 V c t
    | ⟨6, _⟩ => sumAt2 V c t.val t.isLt
    | ⟨7, _⟩ => sqAt2 V c t.val t.isLt
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = hblk2 V c t := by dsimp only [dat2]
theorem after2_6 (c : Dev nD) (t : Fin cfg2.N) : (dat2 V c).after 6 t = sumAt2 V c t.val t.isLt := by dsimp only [dat2]
theorem after2_7 (c : Dev nD) (t : Fin cfg2.N) : (dat2 V c).after 7 t = sqAt2 V c t.val t.isLt := by dsimp only [dat2]

theorem zeros_r2 : (![0, 0] : Fin 2 → Nat) = fun _ => 0 := funext fun a => by fin_cases a <;> rfl

theorem read_writes_cons_whole_r2 {sg : RefSig} {κ : Kind} {sp : Space} {S : Shape} {e : EltTy} {Val : EltTy → Type} [∀ e, Nonempty (Val e)]
    (v : View sg κ sp S e) (f : v.ty.Contents Val) {off : Fin S.rank → Nat} (h : off = fun _ => 0)
    (inb : ∀ a, off a + S.size a ≤ S.size a) (w : S.Idx → Val e) (L : List (View.Piece Val S e)) :
    v.read Val (v.writes Val f ((⟨Rect.unit off S.size inb, w⟩ : View.Piece Val S e) :: L)) = w := by
  rw [View.read_writes_eq_canon v f _ (fun y => ⟨_, List.mem_cons_self, View.mem_set_unit_zero h inb y⟩),
    View.canon_cons_unit_zero h inb w L]

theorem readAt_whole_r2 {sg : RefSig} {κ : Kind} {sp : Space} {S : Shape} {e : EltTy} {Val : EltTy → Type}
    (v : View sg κ sp S e) (f : v.ty.Contents Val) {off : Fin S.rank → Nat} (h : off = fun _ => 0)
    (inb : ∀ a, off a + S.size a ≤ S.size a) :
    v.readAt Val (Rect.unit off S.size inb).toLoadRect f = v.read Val f := by
  rw [View.readAt_eq_ld, View.ld_unit_zero h inb]

abbrev cond2 (i : grid2.Coords) : Prop :=
  (Scalar.cmpi .ne (Scalar.extui (Scalar.cmpi .eq (BitVec.ofNat 32 (i 0).val) 0#32)) 0#32) = 1#1

theorem hcond2 : ∀ t : Fin cfg2.N, cond2 (grid2.coords t) ↔ t.val = 0 :=
  (by decide +kernel : ∀ t : Fin grid2.N, cond2 (grid2.coords t) ↔ t.val = 0)

set_option maxHeartbeats 1000000 in

theorem sound_kernel2_A (c : Dev nD) (E : Set ℕ) (i : grid2.Coords) (hc : cond2 i) (arg1 : Memref sig .tc .vmem S2000x64 .f32) (harg1 : arg1.IsWhole) (arg2 : Memref sig .tc .vmem S2000x64 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S2000x64 .f32) (harg6 : arg6.IsWhole) (arg7 : Memref sig .tc .vmem S1x64 .f32) (harg7 : arg7.IsWhole) (arg8 : Memref sig .tc .vmem S1x64 .f32) (harg8 : arg8.IsWhole)
    (x0 x1 : Vec F S2000x64 .f32) (x2 : Vec F S64x64 .f32) (x3 : Vec F S1x64 .f32) (x4 : Vec F S64x64 .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4
        ∗ (∃ d, owns (c : Thread nD τ) arg6 fullShare d) ∗ (∃ d, owns (c : Thread nD τ) arg7 fullShare d) ∗ (∃ d, owns (c : Thread nD τ) arg8 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (k2_pay4 x0 x1 x2 x4 x3)
            ∗ owns (c : Thread nD τ) arg7 fullShare (k2_pay5 x0 x1 x2 x4 x3 (k2_pay2 (F := F)))
            ∗ owns (c : Thread nD τ) arg8 fullShare (k2_pay1 (k2_pay6 (k2_pay3 (F := F))) (k2_pay7 x0 x1 x2 x4 x3))) -∗ K ⟨⟩))
      ⊢ wp frame (wpE (defs₀ (F := F)) Variants.none c none) E (cc2__linear_stats_kernel i arg1 harg1 arg2 harg2 arg3 harg3 arg4 harg4 arg5 harg5 arg6 harg6 arg7 harg7 arg8 harg8) K := by
  simp only [cc2__linear_stats_kernel_eq_skeleton, k2_part1_eq_skeleton]; unfold cc2__linear_stats_kernel_skel
  simp only [k2_part1_eq_skeleton]; unfold k2_part1_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, Hk⟩
  subst hf0 hf1 hf2 hf3 hf4
  sl_exec (disch := first | exact hc)
  sl_step
  iapply Hk
  isplitl [H0]; · iexists f0; isplitr; · ipureintro; rfl
                  iexact H0
  isplitl [H1]; · iexists f1; isplitr; · ipureintro; rfl
                  iexact H1
  isplitl [H2]; · iexists f2; isplitr; · ipureintro; rfl
                  iexact H2
  isplitl [H3]; · iexists f3; isplitr; · ipureintro; rfl
                  iexact H3
  isplitl [H4]; · iexists f4; isplitr; · ipureintro; rfl
                  iexact H4

  isplitl [H5]
  · iexists _; isplitr; swap; · iexact H5
    ipureintro
    rw [read_writes_cons_whole_r2 (S := S2000x64) _ _ zeros_r2]
    simp only [readAt_whole_r2 (S := S2000x64) _ _ zeros_r2, readAt_whole_r2 (S := S64x64) _ _ zeros_r2, readAt_whole_r2 (S := S1x64) _ _ zeros_r2]
  isplitl [H6]
  · iexists _; isplitr; swap; · iexact H6
    ipureintro
    rw [read_writes_cons_whole_r2 (S := S1x64) _ _ zeros_r2]
    sl_unfold_words
    simp only [readAt_whole_r2 (S := S2000x64) _ _ zeros_r2, readAt_whole_r2 (S := S64x64) _ _ zeros_r2, readAt_whole_r2 (S := S1x64) _ _ zeros_r2,
      View.readCov_unit_zero (S := S1x64) _ zeros_r2]
  · iexists _; isplitr; swap; · iexact H7
    ipureintro
    rw [read_writes_cons_whole_r2 (S := S1x64) _ _ zeros_r2]
    sl_unfold_words
    dsimp only
    simp only [readAt_whole_r2 (S := S2000x64) _ _ zeros_r2, readAt_whole_r2 (S := S64x64) _ _ zeros_r2, readAt_whole_r2 (S := S1x64) _ _ zeros_r2,
      View.readCov_unit_zero (S := S1x64) _ zeros_r2]

set_option maxHeartbeats 1000000 in

theorem sound_kernel2_B (c : Dev nD) (E : Set ℕ) (i : grid2.Coords) (hc : ¬cond2 i) (arg1 : Memref sig .tc .vmem S2000x64 .f32) (harg1 : arg1.IsWhole) (arg2 : Memref sig .tc .vmem S2000x64 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S2000x64 .f32) (harg6 : arg6.IsWhole) (arg7 : Memref sig .tc .vmem S1x64 .f32) (harg7 : arg7.IsWhole) (arg8 : Memref sig .tc .vmem S1x64 .f32) (harg8 : arg8.IsWhole)
    (x0 x1 : Vec F S2000x64 .f32) (x2 : Vec F S64x64 .f32) (x3 : Vec F S1x64 .f32) (x4 : Vec F S64x64 .f32)
    (s q : Vec F S1x64 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4
        ∗ (∃ d, owns (c : Thread nD τ) arg6 fullShare d) ∗ owns (c : Thread nD τ) arg7 fullShare s ∗ owns (c : Thread nD τ) arg8 fullShare q
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (k2_pay4 x0 x1 x2 x4 x3)
            ∗ owns (c : Thread nD τ) arg7 fullShare (k2_pay5 x0 x1 x2 x4 x3 s)
            ∗ owns (c : Thread nD τ) arg8 fullShare (k2_pay1 (k2_pay6 q) (k2_pay7 x0 x1 x2 x4 x3))) -∗ K ⟨⟩))
      ⊢ wp frame (wpE (defs₀ (F := F)) Variants.none c none) E (cc2__linear_stats_kernel i arg1 harg1 arg2 harg2 arg3 harg3 arg4 harg4 arg5 harg5 arg6 harg6 arg7 harg7 arg8 harg8) K := by
  simp only [cc2__linear_stats_kernel_eq_skeleton, k2_part1_eq_skeleton]; unfold cc2__linear_stats_kernel_skel
  simp only [k2_part1_eq_skeleton]; unfold k2_part1_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%f6, %hf6, H6⟩, ⟨%f7, %hf7, H7⟩, Hk⟩
  subst hf0 hf1 hf2 hf3 hf4 hf6 hf7
  sl_exec (disch := first | exact hc)
  sl_step
  iapply Hk
  isplitl [H0]; · iexists f0; isplitr; · ipureintro; rfl
                  iexact H0
  isplitl [H1]; · iexists f1; isplitr; · ipureintro; rfl
                  iexact H1
  isplitl [H2]; · iexists f2; isplitr; · ipureintro; rfl
                  iexact H2
  isplitl [H3]; · iexists f3; isplitr; · ipureintro; rfl
                  iexact H3
  isplitl [H4]; · iexists f4; isplitr; · ipureintro; rfl
                  iexact H4
  isplitl [H5]
  · iexists _; isplitr; swap; · iexact H5
    ipureintro
    rw [read_writes_cons_whole_r2 (S := S2000x64) _ _ zeros_r2]
    simp only [readAt_whole_r2 (S := S2000x64) _ _ zeros_r2, readAt_whole_r2 (S := S64x64) _ _ zeros_r2, readAt_whole_r2 (S := S1x64) _ _ zeros_r2]
  isplitl [H6]
  · iexists _; isplitr; swap; · iexact H6
    ipureintro
    rw [read_writes_cons_whole_r2 (S := S1x64) _ _ zeros_r2]
    simp only [readAt_whole_r2 (S := S2000x64) _ _ zeros_r2, readAt_whole_r2 (S := S64x64) _ _ zeros_r2, readAt_whole_r2 (S := S1x64) _ _ zeros_r2]
  · iexists _; isplitr; swap; · iexact H7
    ipureintro
    rw [read_writes_cons_whole_r2 (S := S1x64) _ _ zeros_r2]
    dsimp only
    simp only [readAt_whole_r2 (S := S2000x64) _ _ zeros_r2, readAt_whole_r2 (S := S64x64) _ _ zeros_r2, readAt_whole_r2 (S := S1x64) _ _ zeros_r2]

theorem before2_0 (c : Dev nD) (t : Fin cfg2.N) (d) : (dat2 V c).before 0 t d = iblk2 V c 0 t := by
  refine ((dat2 V c).before_in_eq_fetched 0 rfl (fun _ => rfl) (fun _ _ _ => rfl) (fun t => ?_) t d).trans ?_
  · rw [after2_0]; unfold Dat.blockOf iblk2; rw [A_eq2]; try rfl
  · unfold Dat.fetched Dat.blockOf iblk2; rw [A_eq2]; try rfl
theorem before2_1 (c : Dev nD) (t : Fin cfg2.N) (d) : (dat2 V c).before 1 t d = iblk2 V c 1 t := by
  refine ((dat2 V c).before_in_eq_fetched 1 rfl (fun _ => rfl) (fun _ _ _ => rfl) (fun t => ?_) t d).trans ?_
  · rw [after2_1]; unfold Dat.blockOf iblk2; rw [A_eq2]; try rfl
  · unfold Dat.fetched Dat.blockOf iblk2; rw [A_eq2]; try rfl
theorem before2_2 (c : Dev nD) (t : Fin cfg2.N) (d) : (dat2 V c).before 2 t d = iblk2 V c 2 t := by
  refine ((dat2 V c).before_in_eq_fetched 2 rfl (fun _ => rfl) (fun _ _ _ => rfl) (fun t => ?_) t d).trans ?_
  · rw [after2_2]; unfold Dat.blockOf iblk2; rw [A_eq2]; try rfl
  · unfold Dat.fetched Dat.blockOf iblk2; rw [A_eq2]; try rfl
theorem before2_3 (c : Dev nD) (t : Fin cfg2.N) (d) : (dat2 V c).before 3 t d = iblk2 V c 3 t := by
  refine ((dat2 V c).before_in_eq_fetched 3 rfl (fun _ => rfl) (fun _ _ _ => rfl) (fun t => ?_) t d).trans ?_
  · rw [after2_3]; unfold Dat.blockOf iblk2; rw [A_eq2]; try rfl
  · unfold Dat.fetched Dat.blockOf iblk2; rw [A_eq2]; try rfl
theorem before2_4 (c : Dev nD) (t : Fin cfg2.N) (d) : (dat2 V c).before 4 t d = iblk2 V c 4 t := by
  refine ((dat2 V c).before_in_eq_fetched 4 rfl (fun _ => rfl) (fun _ _ _ => rfl) (fun t => ?_) t d).trans ?_
  · rw [after2_4]; unfold Dat.blockOf iblk2; rw [A_eq2]; try rfl
  · unfold Dat.fetched Dat.blockOf iblk2; rw [A_eq2]; try rfl

theorem before2_6 (c : Dev nD) (t : Fin cfg2.N) (h0 : t.val ≠ 0) (d) :
    (dat2 V c).before 6 t d = sumAt2 V c (t.val - 1) (Nat.lt_of_le_of_lt (Nat.sub_le _ _) t.isLt) := by
  have hN : t.val < 50 := lt_of_lt_of_eq t.isLt (show cfg2.N = 50 from N_2)
  rw [Dat.before_out_kept _ 6 rfl t h0 (Bool.eq_false_iff.mpr fun h => by have := (flush2_6 _).mp h; dsimp only at this; omega)
    (fun _ => rfl) (fun _ _ => rfl), after2_6]

theorem before2_7 (c : Dev nD) (t : Fin cfg2.N) (h0 : t.val ≠ 0) (d) :
    (dat2 V c).before 7 t d = sqAt2 V c (t.val - 1) (Nat.lt_of_le_of_lt (Nat.sub_le _ _) t.isLt) := by
  have hN : t.val < 50 := lt_of_lt_of_eq t.isLt (show cfg2.N = 50 from N_2)
  rw [Dat.before_out_kept _ 7 rfl t h0 (Bool.eq_false_iff.mpr fun h => by have := (flush2_7 _).mp h; dsimp only at this; omega)
    (fun _ => rfl) (fun _ _ => rfl), after2_7]

theorem sumAt2_first (c : Dev nD) (t : Fin cfg2.N) (h0 : t.val = 0) :
    sumAt2 V c t.val t.isLt = k2_pay5 (iblk2 V c 0 t) (iblk2 V c 1 t) (iblk2 V c 2 t) (iblk2 V c 4 t) (iblk2 V c 3 t) (k2_pay2 (F := F)) := by
  obtain ⟨n, hn⟩ := t
  cases n with
  | zero => rfl
  | succ n => exact absurd h0 (Nat.succ_ne_zero n)

theorem sumAt2_later (c : Dev nD) (t : Fin cfg2.N) (h0 : t.val ≠ 0) :
    sumAt2 V c t.val t.isLt = k2_pay5 (iblk2 V c 0 t) (iblk2 V c 1 t) (iblk2 V c 2 t) (iblk2 V c 4 t) (iblk2 V c 3 t)
      (sumAt2 V c (t.val - 1) (Nat.lt_of_le_of_lt (Nat.sub_le _ _) t.isLt)) := by
  obtain ⟨n, hn⟩ := t
  cases n with
  | zero => exact absurd rfl h0
  | succ n => rfl

theorem sqAt2_first (c : Dev nD) (t : Fin cfg2.N) (h0 : t.val = 0) :
    sqAt2 V c t.val t.isLt = k2_pay1 (k2_pay6 (k2_pay3 (F := F)))
      (k2_pay7 (iblk2 V c 0 t) (iblk2 V c 1 t) (iblk2 V c 2 t) (iblk2 V c 4 t) (iblk2 V c 3 t)) := by
  obtain ⟨n, hn⟩ := t
  cases n with
  | zero => rfl
  | succ n => exact absurd h0 (Nat.succ_ne_zero n)

theorem sqAt2_later (c : Dev nD) (t : Fin cfg2.N) (h0 : t.val ≠ 0) :
    sqAt2 V c t.val t.isLt = k2_pay1 (k2_pay6 (sqAt2 V c (t.val - 1) (Nat.lt_of_le_of_lt (Nat.sub_le _ _) t.isLt)))
      (k2_pay7 (iblk2 V c 0 t) (iblk2 V c 1 t) (iblk2 V c 2 t) (iblk2 V c 4 t) (iblk2 V c 3 t)) := by
  obtain ⟨n, hn⟩ := t
  cases n with
  | zero => exact absurd rfl h0
  | succ n => rfl

def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d))
    ∗ (∃ d, owns (c : Thread nD τ) (st2_7 t) fullShare ((dat2 V c).before 7 t d)))

def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t)
    ∗ owns (c : Thread nD τ) (st2_6 t) fullShare ((dat2 V c).after 6 t)
    ∗ owns (c : Thread nD τ) (st2_7 t) fullShare ((dat2 V c).after 7 t))

set_option maxHeartbeats 1000000 in

theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4]
  rw [show (dat2 V c).Φ t.succ = (dat2 V c).Φ t.castSucc from rfl,
    show (dat2 V c).owesAt () t.succ = (dat2 V c).owesAt () t.castSucc from rfl,
    after2_0, after2_1, after2_2, after2_3, after2_4, after2_5, after2_6, after2_7]
  unfold hblk2
  by_cases h0 : t.val = 0
  · rw [sumAt2_first V c t h0, sqAt2_first V c t h0]
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
    iapply (sound_kernel2_A c Set.univ (grid2.coords t) ((hcond2 t).mpr h0) _ _ _ _ _ _ _ _ _ _ _ _ _ _ _ _
      (iblk2 V c 0 t) (iblk2 V c 1 t) (iblk2 V c 2 t) (iblk2 V c 3 t) (iblk2 V c 4 t) _)
    iframe H0 H1 H2 H3 H4
    isplitl [H5]; · iexists _; iexact H5
    isplitl [H6]; · iexists _; iexact H6
    isplitl [H7]; · iexists _; iexact H7
    iintro ⟨H0, H1, H2, H3, H4, H5, H6, H7⟩
    isplitl [HΦ]; · iexact HΦ
    iframe
  · rw [sumAt2_later V c t h0, sqAt2_later V c t h0]
    simp only [before2_6 V c t h0, before2_7 V c t h0]
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
    iapply (sound_kernel2_B c Set.univ (grid2.coords t) (fun h => h0 ((hcond2 t).mp h)) _ _ _ _ _ _ _ _ _ _ _ _ _ _ _ _
      (iblk2 V c 0 t) (iblk2 V c 1 t) (iblk2 V c 2 t) (iblk2 V c 3 t) (iblk2 V c 4 t)
      (sumAt2 V c (t.val - 1) (Nat.lt_of_le_of_lt (Nat.sub_le _ _) t.isLt))
      (sqAt2 V c (t.val - 1) (Nat.lt_of_le_of_lt (Nat.sub_le _ _) t.isLt)) _)
    iframe H0 H1 H2 H3 H4
    isplitl [H5]; · iexists _; iexact H5
    iframe H6 H7
    iintro ⟨H0, H1, H2, H3, H4, H5, H6, H7⟩
    isplitl [HΦ]; · iexact HΦ
    iframe

theorem body_obligation2 (c : Dev nD) : BodyObligation (dat2 (F := F) V c) (defs₀ (F := F)) Variants.none () Set.univ := fun t => by
  rw [bigSep_W2, bigSep_W2]
  exact sound_body2 V c t

end Cert.KernelIdeal.Hand

end
-- ==== Proof.KI.R3.lean ====
import proofs.«120156_j16690242912872_1_alg».proof.Proof.Gen.KernelIdeal.Launch
import proofs.«120156_j16690242912872_1_alg».proof.Proof.Gen.KernelIdeal.Skeleton
import proofs.«120156_j16690242912872_1_alg».proof.Proof.Gen.KernelIdeal.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

def maxAt3 (c : Dev nD) : (n : ℕ) → n < cfg3.N → Vec F S1x64 .f32
  | 0, hn => k3_pay1 (iblk3 V c 0 ⟨0, hn⟩) (iblk3 V c 1 ⟨0, hn⟩) (iblk3 V c 2 ⟨0, hn⟩)
  | n + 1, hn => k3_pay2 (iblk3 V c 0 ⟨n + 1, hn⟩) (iblk3 V c 1 ⟨n + 1, hn⟩) (iblk3 V c 2 ⟨n + 1, hn⟩) (maxAt3 c n (Nat.lt_of_succ_lt hn))

def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => maxAt3 V c t.val t.isLt
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = maxAt3 V c t.val t.isLt := by dsimp only [dat3]

theorem hcond3_1 : ∀ t : Fin cfg3.N, k3_cond1 (grid3.coords t) = 1#1 ↔ t.val = 0 :=
  (by decide +kernel : ∀ t : Fin grid3.N, k3_cond1 (grid3.coords t) = 1#1 ↔ t.val = 0)

theorem hcond3_2 : ∀ t : Fin cfg3.N, k3_cond2 (grid3.coords t) = 1#1 ↔ t.val ≠ 0 :=
  (by decide +kernel : ∀ t : Fin grid3.N, k3_cond2 (grid3.coords t) = 1#1 ↔ t.val ≠ 0)

theorem live3_3 (i : grid3.Coords) : cfg3.idle 3 i = false := by
  show (!(k3_cond1 i == 1#1) && !(k3_cond2 i == 1#1)) = false
  unfold k3_cond1 k3_cond2 Scalar.cmpi IntOp.cmpi
  dsimp only [bne]
  generalize (BitVec.ofNat 32 (i 0).val == 0#32) = b
  cases b <;> decide

theorem before3_0 (c : Dev nD) (t : Fin cfg3.N) (d) : (dat3 V c).before 0 t d = iblk3 V c 0 t :=
  ((dat3 V c).before_in_eq_fetched 0 rfl (fun _ => rfl) (fun _ _ _ => rfl) (fun t => by rw [after3_0]; unfold Dat.blockOf iblk3; rw [A_eq3]; try rfl) t d).trans
    (by unfold Dat.fetched Dat.blockOf iblk3; rw [A_eq3]; try rfl)
theorem before3_1 (c : Dev nD) (t : Fin cfg3.N) (d) : (dat3 V c).before 1 t d = iblk3 V c 1 t :=
  ((dat3 V c).before_in_eq_fetched 1 rfl (fun _ => rfl) (fun _ _ _ => rfl) (fun t => by rw [after3_1]; unfold Dat.blockOf iblk3; rw [A_eq3]; try rfl) t d).trans
    (by unfold Dat.fetched Dat.blockOf iblk3; rw [A_eq3]; try rfl)
theorem before3_2 (c : Dev nD) (t : Fin cfg3.N) (d) : (dat3 V c).before 2 t d = iblk3 V c 2 t :=
  ((dat3 V c).before_in_eq_fetched 2 rfl (fun _ => rfl) (fun _ _ _ => rfl) (fun t => by rw [after3_2]; unfold Dat.blockOf iblk3; rw [A_eq3]; try rfl) t d).trans
    (by unfold Dat.fetched Dat.blockOf iblk3; rw [A_eq3]; try rfl)

theorem before3_3_first (c : Dev nD) (t : Fin cfg3.N) (h0 : t.val = 0) (d) : (dat3 V c).before 3 t d = d :=
  (dat3 V c).before_out_reset 3 rfl t (.inl h0) d

theorem before3_3_later (c : Dev nD) (t : Fin cfg3.N) (h0 : t.val ≠ 0) (d) :
    (dat3 V c).before 3 t d = maxAt3 V c (t.val - 1) (Nat.lt_of_le_of_lt (Nat.sub_le _ _) t.isLt) := by
  have hN : t.val < 50 := lt_of_lt_of_eq t.isLt (show cfg3.N = 50 from N_3)
  rw [Dat.before_out_kept _ 3 rfl t h0 (Bool.eq_false_iff.mpr fun h => by have := (flush3_3 _).mp h; dsimp only at this; omega)
    live3_3 (fun _ _ => rfl)]
  dsimp only [dat3]

theorem maxAt3_first (c : Dev nD) (t : Fin cfg3.N) (h0 : t.val = 0) :
    maxAt3 V c t.val t.isLt = k3_pay1 (iblk3 V c 0 t) (iblk3 V c 1 t) (iblk3 V c 2 t) := by
  obtain ⟨n, hn⟩ := t
  cases n with
  | zero => rfl
  | succ n => exact absurd h0 (Nat.succ_ne_zero n)

theorem maxAt3_later (c : Dev nD) (t : Fin cfg3.N) (h0 : t.val ≠ 0) :
    maxAt3 V c t.val t.isLt = k3_pay2 (iblk3 V c 0 t) (iblk3 V c 1 t) (iblk3 V c 2 t)
      (maxAt3 V c (t.val - 1) (Nat.lt_of_le_of_lt (Nat.sub_le _ _) t.isLt)) := by
  obtain ⟨n, hn⟩ := t
  cases n with
  | zero => exact absurd rfl h0
  | succ n => rfl

theorem zero_off2 : (![0, 0] : Fin 2 → ℕ) = fun _ => 0 := by
  funext a; fin_cases a <;> rfl

set_option maxHeartbeats 1000000 in

theorem sound_kernel3_first (c : Dev nD) (E : Set ℕ) (i : grid3.Coords)
    (arg1 : Memref sig .tc .vmem S2000x64 .f32) (harg1 : arg1.IsWhole) (arg2 : Memref sig .tc .vmem S1x64 .f32) (harg2 : arg2.IsWhole)
    (arg3 : Memref sig .tc .vmem S1x64 .f32) (harg3 : arg3.IsWhole) (arg4 : Memref sig .tc .vmem S1x64 .f32) (harg4 : arg4.IsWhole)
    (hc1 : k3_cond1 i = 1#1) (hc2 : ¬k3_cond2 i = 1#1)
    (x0 : Vec F S2000x64 .f32) (x1 : Vec F S1x64 .f32) (x2 : Vec F S1x64 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (k3_pay1 x0 x1 x2)) -∗ K ⟨⟩))
      ⊢ wp frame (wpE (defs₀ (F := F)) Variants.none c none) E (cc3__norm_relu_max_kernel i arg1 harg1 arg2 harg2 arg3 harg3 arg4 harg4) K := by
  simp only [cc3__norm_relu_max_kernel_eq_skeleton]; unfold cc3__norm_relu_max_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec (disch := first | exact hc1 | exact hc2)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  rw [View.read_writes_eq_canon _ _ _ (fun y => ⟨_, List.mem_singleton_self _, View.mem_set_unit_zero zero_off2 inb_S1x64_S1x64_0_0 y⟩),
    View.canon_unit_zero zero_off2]
  simp only [View.readAt_eq_ld, View.ld_unit_zero (S := S2000x64) zero_off2, View.ld_unit_zero (S := S1x64) zero_off2]

set_option maxHeartbeats 1000000 in

theorem sound_kernel3_later (c : Dev nD) (E : Set ℕ) (i : grid3.Coords)
    (arg1 : Memref sig .tc .vmem S2000x64 .f32) (harg1 : arg1.IsWhole) (arg2 : Memref sig .tc .vmem S1x64 .f32) (harg2 : arg2.IsWhole)
    (arg3 : Memref sig .tc .vmem S1x64 .f32) (harg3 : arg3.IsWhole) (arg4 : Memref sig .tc .vmem S1x64 .f32) (harg4 : arg4.IsWhole)
    (hc1 : ¬k3_cond1 i = 1#1) (hc2 : k3_cond2 i = 1#1)
    (x0 : Vec F S2000x64 .f32) (x1 : Vec F S1x64 .f32) (x2 : Vec F S1x64 .f32) (xo : Vec F S1x64 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare xo
        ∗ (iprop(owns (c : Thread nD τ) arg1 fullShare x0 ∗ owns (c : Thread nD τ) arg2 fullShare x1 ∗ owns (c : Thread nD τ) arg3 fullShare x2
            ∗ owns (c : Thread nD τ) arg4 fullShare (k3_pay2 x0 x1 x2 xo)) -∗ K ⟨⟩))
      ⊢ wp frame (wpE (defs₀ (F := F)) Variants.none c none) E (cc3__norm_relu_max_kernel i arg1 harg1 arg2 harg2 arg3 harg3 arg4 harg4) K := by
  simp only [cc3__norm_relu_max_kernel_eq_skeleton]; unfold cc3__norm_relu_max_kernel_skel
  unfold owns
  iintro ⟨⟨%f0, %hf0, H0⟩, ⟨%f1, %hf1, H1⟩, ⟨%f2, %hf2, H2⟩, ⟨%f3, %hf3, H3⟩, Hk⟩
  subst hf0 hf1 hf2 hf3
  sl_exec (disch := first | exact hc1 | exact hc2)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  rw [View.read_writes_eq_canon _ _ _ (fun y => ⟨_, List.mem_singleton_self _, View.mem_set_unit_zero zero_off2 inb_S1x64_S1x64_0_0 y⟩),
    View.canon_unit_zero zero_off2]
  simp only [View.readAt_eq_ld, View.ld_unit_zero (S := S2000x64) zero_off2, View.ld_unit_zero (S := S1x64) zero_off2]

def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d)))

def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t))

set_option maxHeartbeats 800000 in

theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2]
  rw [show (dat3 V c).Φ t.succ = (dat3 V c).Φ t.castSucc from rfl,
    show (dat3 V c).owesAt () t.succ = (dat3 V c).owesAt () t.castSucc from rfl,
    after3_0, after3_1, after3_2, after3_3]
  by_cases h0 : t.val = 0
  · rw [maxAt3_first V c t h0]
    iintro ⟨HΦ, Ho, ⟨%d0, H0⟩, ⟨%d1, H1⟩, ⟨%d2, H2⟩, ⟨%d3, H3⟩⟩
    iapply (sound_kernel3_first c Set.univ (grid3.coords t) _ _ _ _ _ _ _ _ ((hcond3_1 t).mpr h0) (fun h => (hcond3_2 t).mp h h0)
      (iblk3 V c 0 t) (iblk3 V c 1 t) (iblk3 V c 2 t) _)
    iframe H0 H1 H2
    isplitl [H3]; · iexists _; iexact H3
    iintro ⟨H0, H1, H2, H3⟩
    isplitl [HΦ]; · iexact HΦ
    iframe
  · rw [maxAt3_later V c t h0]
    simp only [before3_3_later V c t h0]
    iintro ⟨HΦ, Ho, ⟨%d0, H0⟩, ⟨%d1, H1⟩, ⟨%d2, H2⟩, ⟨%d3, H3⟩⟩
    iapply (sound_kernel3_later c Set.univ (grid3.coords t) _ _ _ _ _ _ _ _ (fun h => h0 ((hcond3_1 t).mp h)) ((hcond3_2 t).mpr h0)
      (iblk3 V c 0 t) (iblk3 V c 1 t) (iblk3 V c 2 t) (maxAt3 V c (t.val - 1) (Nat.lt_of_le_of_lt (Nat.sub_le _ _) t.isLt)) _)
    iframe H0 H1 H2 H3
    iintro ⟨H0, H1, H2, H3⟩
    isplitl [HΦ]; · iexact HΦ
    iframe

theorem body_obligation3 (c : Dev nD) : BodyObligation (dat3 (F := F) V c) (defs₀ (F := F)) Variants.none () Set.univ := fun t => by
  rw [bigSep_W3, bigSep_W3, show cfg3.idle 3 (cfg3.grid.coords t) = false from live3_3 _]
  exact sound_body3 V c t

end Cert.KernelIdeal.Hand

end
-- ==== Proof.KI.Run.lean ====
import proofs.«120156_j16690242912872_1_alg».proof.Proof.KI.R0
import proofs.«120156_j16690242912872_1_alg».proof.Proof.KI.R1
import proofs.«120156_j16690242912872_1_alg».proof.Proof.KI.R2
import proofs.«120156_j16690242912872_1_alg».proof.Proof.KI.R3
import proofs.«120156_j16690242912872_1_alg».proof.Proof.Gen.KernelIdeal.Regions

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ)

/-- A buffer that is no output array of a region holds after the region what it held before. -/
theorem withArrays_keep {cfg : Cfg sig Λ₀} {c : Dev nD} (D : Dat τ (Elt F) Unit ℕ (UR sig nD τ) ℕ cfg c)
    (hinj : Function.Injective (Pipeline.arrRef cfg.spec)) (V : Valuation τ sig (Elt F))
    (hA : ∀ w, D.A w = V (Pipeline.arrRef cfg.spec w)) (b : Ref sig .tc)
    (hb : ∀ w : Fin cfg.W, (cfg.win w).isOut = true → Pipeline.arrRef cfg.spec w ≠ b) :
    Pipeline.withArrays cfg.spec c V (fun w => D.arrAt w cfg.N) (Proc.devRef .tc b) = V (Proc.devRef .tc b) := by
  by_cases h : ∃ w, Pipeline.arrRef cfg.spec w = b
  · obtain ⟨w, rfl⟩ := h
    have hin : (cfg.win w).isOut = false := by
      cases hh : (cfg.win w).isOut
      · rfl
      · exact absurd rfl (hb w hh)
    rw [Pipeline.withArrays_arr _ hinj]
    exact (D.arrAt_in w hin _).trans (hA w)
  · exact Pipeline.withArrays_of_ne _ c _ _ b (fun w e => h ⟨w, e⟩)

abbrev W0 : Dev nD → Valuation τ sig (Elt F) := fun c b => m (c, b)

abbrev W1 : Dev nD → Valuation τ sig (Elt F) := fun c => StableHlo.after hostOps0 (W0 m c)
abbrev U1 : (c : Dev nD) → (b : Ref sig .tc) → Buf (Elt F) ((c : Thread nD τ).loc b) := fun c b => W1 m c b

def W2 (c : Dev nD) : Valuation τ sig (Elt F) :=
  Pipeline.withArrays spec0 c (W1 m c) fun w => (dat0 (U1 m) c).arrAt w cfg0.N
theorem W2_arr (c : Dev nD) (w : Fin cfg0.W) :
    W2 m c (Proc.devRef .tc (Pipeline.arrRef spec0 w)) = (dat0 (U1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev U2 : (c : Dev nD) → (b : Ref sig .tc) → Buf (Elt F) ((c : Thread nD τ).loc b) := fun c b => W2 m c b
theorem W2_keep (c : Dev nD) (b : Ref sig .tc) (hb : ∀ w : Fin cfg0.W, (cfg0.win w).isOut = true → Pipeline.arrRef spec0 w ≠ b) :
    W2 m c (Proc.devRef .tc b) = W1 m c (Proc.devRef .tc b) :=
  withArrays_keep (dat0 (U1 m) c) launch0.win.arr_inj (W1 m c) (fun _ => rfl) b hb

abbrev W3 : Dev nD → Valuation τ sig (Elt F) := fun c => StableHlo.after hostOps1 (W2 m c)
abbrev U3 : (c : Dev nD) → (b : Ref sig .tc) → Buf (Elt F) ((c : Thread nD τ).loc b) := fun c b => W3 m c b

def W4 (c : Dev nD) : Valuation τ sig (Elt F) :=
  Pipeline.withArrays spec1 c (W3 m c) fun w => (dat1 (U3 m) c).arrAt w cfg1.N
theorem W4_arr (c : Dev nD) (w : Fin cfg1.W) :
    W4 m c (Proc.devRef .tc (Pipeline.arrRef spec1 w)) = (dat1 (U3 m) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m c (Proc.devRef .tc b) = W3 m c (Proc.devRef .tc b) := by
  unfold W4; exact Pipeline.withArrays_of_ne spec1 c _ _ b hb
abbrev U4 : (c : Dev nD) → (b : Ref sig .tc) → Buf (Elt F) ((c : Thread nD τ).loc b) := fun c b => W4 m c b
theorem W4_keep (c : Dev nD) (b : Ref sig .tc) (hb : ∀ w : Fin cfg1.W, (cfg1.win w).isOut = true → Pipeline.arrRef spec1 w ≠ b) :
    W4 m c (Proc.devRef .tc b) = W3 m c (Proc.devRef .tc b) :=
  withArrays_keep (dat1 (U3 m) c) launch1.win.arr_inj (W3 m c) (fun _ => rfl) b hb

abbrev W5 : Dev nD → Valuation τ sig (Elt F) := fun c => StableHlo.after hostOps2 (W4 m c)
abbrev U5 : (c : Dev nD) → (b : Ref sig .tc) → Buf (Elt F) ((c : Thread nD τ).loc b) := fun c b => W5 m c b

def W6 (c : Dev nD) : Valuation τ sig (Elt F) :=
  Pipeline.withArrays spec2 c (W5 m c) fun w => (dat2 (U5 m) c).arrAt w cfg2.N
theorem W6_arr (c : Dev nD) (w : Fin cfg2.W) :
    W6 m c (Proc.devRef .tc (Pipeline.arrRef spec2 w)) = (dat2 (U5 m) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m c (Proc.devRef .tc b) = W5 m c (Proc.devRef .tc b) := by
  unfold W6; exact Pipeline.withArrays_of_ne spec2 c _ _ b hb
abbrev U6 : (c : Dev nD) → (b : Ref sig .tc) → Buf (Elt F) ((c : Thread nD τ).loc b) := fun c b => W6 m c b
theorem W6_keep (c : Dev nD) (b : Ref sig .tc) (hb : ∀ w : Fin cfg2.W, (cfg2.win w).isOut = true → Pipeline.arrRef spec2 w ≠ b) :
    W6 m c (Proc.devRef .tc b) = W5 m c (Proc.devRef .tc b) :=
  withArrays_keep (dat2 (U5 m) c) launch2.win.arr_inj (W5 m c) (fun _ => rfl) b hb

abbrev W7 : Dev nD → Valuation τ sig (Elt F) := fun c => StableHlo.after hostOps3 (W6 m c)
abbrev U7 : (c : Dev nD) → (b : Ref sig .tc) → Buf (Elt F) ((c : Thread nD τ).loc b) := fun c b => W7 m c b

def W8 (c : Dev nD) : Valuation τ sig (Elt F) :=
  Pipeline.withArrays spec3 c (W7 m c) fun w => (dat3 (U7 m) c).arrAt w cfg3.N
theorem W8_arr (c : Dev nD) (w : Fin cfg3.W) :
    W8 m c (Proc.devRef .tc (Pipeline.arrRef spec3 w)) = (dat3 (U7 m) c).arrAt w cfg3.N := by
  unfold W8; exact Pipeline.withArrays_arr spec3 launch3.win.arr_inj c _ _ w
theorem W8_of_ne (c : Dev nD) (b : Ref sig .tc) (hb : ∀ w, Pipeline.arrRef spec3 w ≠ b) :
    W8 m c (Proc.devRef .tc b) = W7 m c (Proc.devRef .tc b) := by
  unfold W8; exact Pipeline.withArrays_of_ne spec3 c _ _ b hb
abbrev U8 : (c : Dev nD) → (b : Ref sig .tc) → Buf (Elt F) ((c : Thread nD τ).loc b) := fun c b => W8 m c b
theorem W8_keep (c : Dev nD) (b : Ref sig .tc) (hb : ∀ w : Fin cfg3.W, (cfg3.win w).isOut = true → Pipeline.arrRef spec3 w ≠ b) :
    W8 m c (Proc.devRef .tc b) = W7 m c (Proc.devRef .tc b) :=
  withArrays_keep (dat3 (U7 m) c) launch3.win.arr_inj (W7 m c) (fun _ => rfl) b hb

abbrev W9 : Dev nD → Valuation τ sig (Elt F) := fun c => StableHlo.after hostOps4 (W8 m c)
abbrev U9 : (c : Dev nD) → (b : Ref sig .tc) → Buf (Elt F) ((c : Thread nD τ).loc b) := fun c b => W9 m c b

def pdats : (p : Fin 4) → (c : Dev nD) → Dat τ (Elt F) Unit ℕ (UR sig nD τ) ℕ (Pipeline.pin (pcfgs (F := F)) adm p) c
  | ⟨0, _⟩ => fun c => dat0 (U1 m) c
  | ⟨1, _⟩ => fun c => dat1 (U3 m) c
  | ⟨2, _⟩ => fun c => dat2 (U5 m) c
  | ⟨3, _⟩ => fun c => dat3 (U7 m) c
abbrev 𝒱₀ : Variants := Variants.none

abbrev L : GSem nD τ sig → Finset Unit := fun _ => ∅
abbrev lv : GSem nD τ sig → Unit → ℕ := fun _ _ => 0

abbrev R (c : Dev nD) : sProp 𝕄 := iprop((∃ r, prngReg c r) ∗ ∃ W, owes (c : Thread nD τ) (0 : CellTallies nD τ sig Unit) W)

abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

abbrev Tₙ (c : Dev nD) : sProp 𝕄 := iprop(StableHlo.held (c : Thread nD τ) (Pipeline.ucRefs τ sig) (W9 m c) ∗ ∃ r, prngReg c r)

set_option backward.isDefEq.respectTransparency.types false in
/-- One region's record for all four regions, from the buffers' contents `Win` before it to `Wout` after it. -/
def mkReg (p : Fin 4) (lf : Pipeline.LaunchFacts (nD := nD) (τ := τ) cfgs p) (Win Wout : Dev nD → Valuation τ sig (Elt F))
    (hbody : ∀ c, BodyObligation (pdats m p c) (defs₀ (F := F)) Variants.none () Set.univ)
    (hq : ∀ c w, (pdats m p c).q w = fullShare) (howed : ∀ c t, (pdats m p c).owed t = 0)
    (hrec : ∀ c t, (pdats m p c).recorded t = Set.univ) (hΦ : ∀ c k, (pdats m p c).Φ k = Pipeline.ΦA (cfgs p).spec c)
    (hA : ∀ c w, (pdats m p c).A w = Win c (Pipeline.arrRef (cfgs p).spec w))
    (hW : ∀ c, Wout c = Pipeline.withArrays (cfgs p).spec c (Win c) fun w => (pdats m p c).arrAt w (cfgs p).N) :
    Pipeline.RegionSeg (pcfgs (F := F)) adm (pdats m) () defs₀ 𝒱₀ L lv p where
  win := lf.win.to₀
  block_pos := lf.block_pos
  stage_whole := lf.stage_whole
  K := PEmpty
  osem k := k.elim
  ho := Pipeline.OwnSemFacts.none _
  hbody c := (hbody c).loose
  hwaits := Pipeline.hwaits_of_owed_zero _ _ _ _ L lv p howed
  pre c := iprop(StableHlo.held (c : Thread nD τ) (Pipeline.ucRefs τ sig) (Win c) ∗ R c)
  post c := iprop(StableHlo.held (c : Thread nD τ) (Pipeline.ucRefs τ sig) (Wout c) ∗ R c)
  X c := iprop(∃ r, prngReg c r)
  Y c := iprop(∃ r, prngReg c r)
  Z c := Pipeline.unscopedRest (Ix := Unit) (Name := ℕ) (U := UR sig nD τ) (Lvl := ℕ) (cfgs p).spec c (fun b => Win c b)
  hentry c := by
    rw [Pipeline.ownSems0_none]
    unfold Pipeline.Dat.owesAt Pipeline.owesWithin
    rw [howed c 0]
    have hsplit := Pipeline.arrays_of_unscopedBufs (p := p) (pcfgs (F := F)) adm (pdats m) lf.win lf.arr_whole c
      ((pdats m p c).share_full (hq c)) (fun b => Win c b) (hA c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · icases HO with ⟨%W, HO⟩; iexists W; isplitr; · ipureintro; exact fun _ _ => Or.inl (by rw [hrec c 0]; trivial)
      iexact HO
    isplitl [Hp]; · iexact Hp
    iexact Hrest
  hin c := by
    rw [hΦ c 0]; unfold Pipeline.ΦA
    iintro ⟨Hp, -, Hr⟩
    isplitl [Hr]; · iexact Hr
    iexact Hp
  hout c := by
    rw [Pipeline.ownSems0_none, hΦ c (Fin.last _)]; unfold Pipeline.ΦA
    iintro ⟨Hr, Hp⟩
    isplitl [Hp]; · iexact Hp
    isplitr; · iempintro
    iexact Hr
  hexit c := by
    have hjoin := Pipeline.unscopedBufs_of_arrays (p := p) (pcfgs (F := F)) adm (Ix := Unit) (Name := ℕ) (U := UR sig nD τ) (Lvl := ℕ)
      lf.win lf.arr_whole c (pdats m) ((pdats m p c).share_full (hq c))
      (fun b => Win c b) (fun b => Wout c b) ((pdats m p c).arrAt · (cfgs p).N)
      (fun w => by rw [hW c]; exact (Pipeline.withArrays_arr (cfgs p).spec lf.win.arr_inj c (Win c) (fun w => (pdats m p c).arrAt w (cfgs p).N) w).symm)
      (fun b hb => by rw [hW c]; exact Pipeline.withArrays_of_ne (cfgs p).spec c (Win c) (fun w => (pdats m p c).arrAt w (cfgs p).N) b fun w e => hb (Finset.mem_image.mpr ⟨w, Finset.mem_univ _, e⟩))
    rw [Pipeline.unscopedBufs_held] at hjoin
    unfold Pipeline.Dat.owesAt Pipeline.owesWithin
    rw [howed c]
    iintro ⟨Ha, HO, HY, Hrest⟩
    imodintro
    isplitl [Ha Hrest]
    · iapply hjoin; isplitl [Ha] <;> iassumption
    isplitl [HY]; · iexact HY
    icases HO with ⟨%W, -, HO⟩; iexists W; iexact HO

abbrev reg0 := mkReg m 0 launch0 (W1 m) (W2 m) (body_obligation0 (U1 m)) (fun _ _ => rfl) (fun _ _ => rfl) (fun _ _ => rfl) (fun _ _ => rfl) (fun _ _ => rfl) (fun _ => rfl)
abbrev reg1 := mkReg m 1 launch1 (W3 m) (W4 m) (body_obligation1 (U3 m)) (fun _ _ => rfl) (fun _ _ => rfl) (fun _ _ => rfl) (fun _ _ => rfl) (fun _ _ => rfl) (fun _ => rfl)
abbrev reg2 := mkReg m 2 launch2 (W5 m) (W6 m) (body_obligation2 (U5 m)) (fun _ _ => rfl) (fun _ _ => rfl) (fun _ _ => rfl) (fun _ _ => rfl) (fun _ _ => rfl) (fun _ => rfl)
abbrev reg3 := mkReg m 3 launch3 (W7 m) (W8 m) (body_obligation3 (U7 m)) (fun _ _ => rfl) (fun _ _ => rfl) (fun _ _ => rfl) (fun _ _ => rfl) (fun _ _ => rfl) (fun _ => rfl)

abbrev segs : List (Pipeline.Seg (pcfgs (F := F)) adm (pdats m) () defs₀ 𝒱₀ L lv) :=
  [ .host (hseg hostOps0 hostOps0_sub hostOps0_fresh (W0 m)),
    .region (reg0 m),
    .host (hseg hostOps1 hostOps1_sub hostOps1_fresh (W2 m)),
    .region (reg1 m),
    .host (hseg hostOps2 hostOps2_sub hostOps2_fresh (W4 m)),
    .region (reg2 m),
    .host (hseg hostOps3 hostOps3_sub hostOps3_fresh (W6 m)),
    .region (reg3 m),
    .host (hseg hostOps4 hostOps4_sub hostOps4_fresh (W8 m)) ]

theorem main_run (c : Dev nD) : main (F := F) c = Pipeline.Seg.run (segs m) := (main_chain c).trans (by chain_rfl)

set_option backward.isDefEq.respectTransparency.types false in

theorem run_all (ρ : Dev nD → PrngReg) : θ_run defs (onTc (τ := τ) (main (F := F))) ⟨m, fun _ => 0, ρ⟩
    (fun r => ∀ c : Dev nD, ∀ b ∈ Pipeline.ucRefs τ sig, r.2.mem (((c : Thread nD τ)).1, b) = W9 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun _ => .rfl, fun _ => .rfl, fun _ => .rfl, fun _ => .rfl,
      fun c => by
        show iprop(StableHlo.held (c : Thread nD τ) (Pipeline.ucRefs τ sig) (StableHlo.after hostOps4 (W8 m c)) ∗ R c)
          ⊢ iprop(Tₙ m c ∗ ∃ W, owes (c : Thread nD τ) (0 : CellTallies nD τ sig Unit) W)
        iintro ⟨Hh, Hp, HO⟩
        isplitl [Hh Hp]
        · isplitl [Hh]; · iexact Hh
          iexact Hp
        · iexact HO⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m c b)
    (hfin := fun c s' => by
      iintro ⟨⟨Hh, -⟩, HSI⟩
      unfold StableHlo.held
      imodintro
      iapply (pointsTo_read_all (Pipeline.ucRefs τ sig) (fun b => (((c : Thread nD τ)).1, b)) (W9 m c) s')
      isplitl [Hh] <;> iassumption)
    (hQ := fun s h c => h c)

abbrev args : List (Ref sig .tc) :=
  [main_arg0, main_arg1, main_arg2, main_arg3, main_arg4, main_arg5, main_arg6, main_arg7, main_arg8, main_arg9, main_arg10, main_arg11]

/-- No host operation and no region changes an argument, so it ends as launched. -/
theorem W9_of_arg (c : Dev nD) (r : Ref sig .tc) (hr : r ∈ args) : W9 m c (Proc.devRef .tc r) = m ((c : Thread nD τ).loc r) :=
  (StableHlo.after_of_writes_sub hostOps4 _ hostOps4_writes ((by decide : ∀ r ∈ args, r ∉ hostOps4_W) r hr)).trans <|
  (W8_keep m c r ((by decide : ∀ r ∈ args, ∀ w : Fin cfg3.W, (cfg3.win w).isOut = true → Pipeline.arrRef spec3 w ≠ r) r hr)).trans <|
  (StableHlo.after_of_writes_sub hostOps3 _ hostOps3_writes ((by decide : ∀ r ∈ args, r ∉ hostOps3_W) r hr)).trans <|
  (W6_keep m c r ((by decide : ∀ r ∈ args, ∀ w : Fin cfg2.W, (cfg2.win w).isOut = true → Pipeline.arrRef spec2 w ≠ r) r hr)).trans <|
  (StableHlo.after_of_writes_sub hostOps2 _ hostOps2_writes ((by decide : ∀ r ∈ args, r ∉ hostOps2_W) r hr)).trans <|
  (W4_keep m c r ((by decide : ∀ r ∈ args, ∀ w : Fin cfg1.W, (cfg1.win w).isOut = true → Pipeline.arrRef spec1 w ≠ r) r hr)).trans <|
  (StableHlo.after_of_writes_sub hostOps1 _ hostOps1_writes ((by decide : ∀ r ∈ args, r ∉ hostOps1_W) r hr)).trans <|
  (W2_keep m c r ((by decide : ∀ r ∈ args, ∀ w : Fin cfg0.W, (cfg0.win w).isOut = true → Pipeline.arrRef spec0 w ≠ r) r hr)).trans <|
  (StableHlo.after_of_writes_sub hostOps0 _ hostOps0_writes ((by decide : ∀ r ∈ args, r ∉ hostOps0_W) r hr)).trans rfl

/-- The run with the result named and every argument as launched; the frame is this with the first conjunct dropped. -/
theorem run_named (ρ : Dev nD → PrngReg) : θ_run defs (onTc (τ := τ) (main (F := F))) ⟨m, fun _ => 0, ρ⟩ (fun r => ∀ c : Dev nD,
      r.2.mem ((c.tc : Thread nD τ).loc main_v72) = W9 m c main_v72
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun r h c =>
    have e : ∀ a ∈ args, r.2.mem ((c.tc : Thread nD τ).loc a) = m ((c.tc : Thread nD τ).loc a) := fun a ha =>
      (h c _ (mem_uc a ((by decide : ∀ a ∈ args, ¬ (Proc.devRef .tc a : DevRef τ sig).isScoped) a ha))).trans (W9_of_arg m c a ha)
    ⟨h c _ (mem_uc main_v72 (by decide)), e main_arg0 (by decide), e main_arg1 (by decide), e main_arg2 (by decide), e main_arg3 (by decide),
      e main_arg4 (by decide), e main_arg5 (by decide), e main_arg6 (by decide), e main_arg7 (by decide), e main_arg8 (by decide),
      e main_arg9 (by decide), e main_arg10 (by decide), e main_arg11 (by decide)⟩) (run_all m ρ)

end Cert.KernelIdeal.Hand

end
-- ==== Proof.Val.Spec.lean ====
import Idealize.ShloMosaic.PureOps.Ideal
import Idealize.ShloMosaic.Lib.ValueIdx

noncomputable section

namespace Cert.Spec

open Idealize.ShloMosaic
open scoped BigOperators

abbrev nodes : EReal := Ideal.ofBits .f32 0x47C35000#32

abbrev eps : EReal := Ideal.ofBits .f32 0x3727C5AC#32

abbrev one : EReal := Ideal.ofBits .f32 0x3F800000#32

abbrev zero : EReal := Ideal.ofBits .f32 0x00000000#32

variable {N K H : ℕ}

def kMean (A : Fin N → Fin K → EReal) (cnt : Fin N → EReal) (i : Fin N) (k : Fin K) : EReal :=
  A i k * Ideal.div one (max (cnt i) one)

def rMean (A : Fin N → Fin K → EReal) (cnt : Fin N → EReal) (i : Fin N) (k : Fin K) : EReal :=
  Ideal.div (A i k) (max (cnt i) one)

def lin (mean z : Fin N → Fin K → EReal) (Wl Wr : Fin K → Fin H → EReal) (b : Fin H → EReal) (i : Fin N) (j : Fin H) : EReal :=
  (∑ k, mean i k * Wl k j) + b j + ∑ k, z i k * Wr k j

def colMean (h : Fin N → Fin H → EReal) (j : Fin H) : EReal := Ideal.div (∑ i, h i j) nodes

def kNorm (h : Fin N → Fin H → EReal) (g be : Fin H → EReal) (i : Fin N) (j : Fin H) : EReal :=
  max (h i j * (g j * Ideal.rsqrt (Ideal.div (∑ i', h i' j * h i' j) nodes - colMean h j * colMean h j + eps))
      + (be j - colMean h j * (g j * Ideal.rsqrt (Ideal.div (∑ i', h i' j * h i' j) nodes - colMean h j * colMean h j + eps)))) zero

def rNorm (h : Fin N → Fin H → EReal) (g be : Fin H → EReal) (i : Fin N) (j : Fin H) : EReal :=
  max ((h i j - colMean h j)
        * Ideal.rsqrt (Ideal.div (∑ i', (h i' j - colMean h j) * (h i' j - colMean h j)) nodes + eps) * g j + be j) zero

def colMax (h : Fin N → Fin H → EReal) (j : Fin H) : EReal := Finset.univ.sup fun i => h i j

def AllReal {ι : Type} (x : ι → EReal) : Prop := ∀ i, ∃ r : ℝ, x i = (r : EReal)

def AllReal₂ {ι κ : Type} (x : ι → κ → EReal) : Prop := ∀ i k, ∃ r : ℝ, x i k = (r : EReal)

end Cert.Spec

end
-- ==== Proof.Val.K0.lean ====
import proofs.«120156_j16690242912872_1_alg».proof.Proof.KI.R0
import proofs.«120156_j16690242912872_1_alg».proof.Proof.Val.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Idealize.ShloMosaic Idealize.ShloMosaic.TcCoe Idealize.ShloMosaic.ValueIdx
open Idealize.ShloMosaic.Pipeline (Dat Cfg Window)
open Cert.KernelIdeal Cert.KernelIdeal.Gen
open scoped BigOperators

variable (V : (c : Dev nD) → (b : Ref sig .tc) → Buf (Elt Ideal) ((c : Thread nD τ).loc b))

abbrev mean0 (c : Dev nD) : Fin 100000 → Fin 2 → EReal := fun i q => (V c main_v24 : FVec Ideal S100000x2 .f32) (ix2 i q)
abbrev feat0 (c : Dev nD) : Fin 100000 → Fin 2 → EReal := fun i q => (V c main_arg0 : FVec Ideal S100000x2 .f32) (ix2 i q)
abbrev wl0 (c : Dev nD) : Fin 2 → Fin 64 → EReal := fun q j => (V c main_arg2 : FVec Ideal S2x64 .f32) (ix2 q j)
abbrev wr0 (c : Dev nD) : Fin 2 → Fin 64 → EReal := fun q j => (V c main_arg4 : FVec Ideal S2x64 .f32) (ix2 q j)
abbrev bias0 (c : Dev nD) : Fin 64 → EReal := fun j => (V c main_v25 : FVec Ideal S1x64 .f32) (ix2 0 j)

abbrev hpre0 (c : Dev nD) : Fin 100000 → Fin 64 → EReal :=
  Cert.Spec.lin (mean0 V c) (feat0 V c) (wl0 V c) (wr0 V c) (bias0 V c)

namespace K0

theorem lhs_dot0_0 (i : S2000x64.Idx) (q : dot_S2000x2_S2x64_S2000x64_1_0_0_1_n_n.contr.Idx) :
    (dot_S2000x2_S2x64_S2000x64_1_0_0_1_n_n.lhsIdx i q 0).val = (i 0).val := by
  unfold DotDims.lhsIdx
  rw [dif_neg (show ¬(0 : Fin S2000x2.rank) ∈ dot_S2000x2_S2x64_S2000x64_1_0_0_1_n_n.lhsBatch by decide), dif_pos (show (0 : Fin S2000x2.rank) ∈ dot_S2000x2_S2x64_S2000x64_1_0_0_1_n_n.lhsNonContracting by decide)]
  rfl
theorem lhs_dot0_1 (i : S2000x64.Idx) (q : dot_S2000x2_S2x64_S2000x64_1_0_0_1_n_n.contr.Idx) :
    (dot_S2000x2_S2x64_S2000x64_1_0_0_1_n_n.lhsIdx i q 1).val = (q ⟨0, by decide⟩).val :=
  dot_S2000x2_S2x64_S2000x64_1_0_0_1_n_n.lhsIdx_val_of_single rfl i q
theorem rhs_dot0_0 (i : S2000x64.Idx) (q : dot_S2000x2_S2x64_S2000x64_1_0_0_1_n_n.contr.Idx) :
    (dot_S2000x2_S2x64_S2000x64_1_0_0_1_n_n.rhsIdx i q 0).val = (q ⟨0, by decide⟩).val :=
  dot_S2000x2_S2x64_S2000x64_1_0_0_1_n_n.rhsIdx_val_of_single rfl i q
theorem rhs_dot0_1 (i : S2000x64.Idx) (q : dot_S2000x2_S2x64_S2000x64_1_0_0_1_n_n.contr.Idx) :
    (dot_S2000x2_S2x64_S2000x64_1_0_0_1_n_n.rhsIdx i q 1).val = (i 1).val := by
  unfold DotDims.rhsIdx
  rw [dif_neg (show ¬(1 : Fin S2x64.rank) ∈ dot_S2000x2_S2x64_S2000x64_1_0_0_1_n_n.rhsBatch by decide), dif_pos (show (1 : Fin S2x64.rank) ∈ dot_S2000x2_S2x64_S2000x64_1_0_0_1_n_n.rhsNonContracting by decide)]
  rfl

theorem matmul0_apply (a : FVec Ideal S2000x2 .bf16) (b : FVec Ideal S2x64 .bf16) (r : Fin 2000) (j : Fin 64) :
    matmul dot_S2000x2_S2x64_S2000x64_1_0_0_1_n_n none a b (constant (F := Ideal) S2000x64 .f32 0x00000000#32) (ix2 r j)
      = ∑ k : Fin 2, a (ix2 r k) * b (ix2 k j) := by
  simp only [matmul]
  rw [Ideal.matmul_constant_zero_apply, ← Equiv.sum_comp (ValueIdx.contrEquiv1 dot_S2000x2_S2x64_S2000x64_1_0_0_1_n_n 2 rfl rfl).symm]
  refine Finset.sum_congr rfl fun k _ => ?_
  have hk := ValueIdx.contrEquiv1_symm_val dot_S2000x2_S2x64_S2000x64_1_0_0_1_n_n 2 rfl rfl k
  have el : dot_S2000x2_S2x64_S2000x64_1_0_0_1_n_n.lhsIdx (ix2 r j) ((ValueIdx.contrEquiv1 dot_S2000x2_S2x64_S2000x64_1_0_0_1_n_n 2 rfl rfl).symm k) = ix2 r k := funext fun a => Fin.ext (by
    match a with
    | ⟨0, _⟩ => exact lhs_dot0_0 _ _
    | ⟨1, _⟩ => exact (lhs_dot0_1 _ _).trans hk)
  have er : dot_S2000x2_S2x64_S2000x64_1_0_0_1_n_n.rhsIdx (ix2 r j) ((ValueIdx.contrEquiv1 dot_S2000x2_S2x64_S2000x64_1_0_0_1_n_n 2 rfl rfl).symm k) = ix2 k j := funext fun a => Fin.ext (by
    match a with
    | ⟨0, _⟩ => exact (rhs_dot0_0 _ _).trans hk
    | ⟨1, _⟩ => exact rhs_dot0_1 _ _)
  rw [el, er]

theorem pay3_apply (x0 x1 : Vec Ideal S2000x2 .f32) (w0 w1 : Vec Ideal S2x64 .f32) (b : Vec Ideal S1x64 .f32)
    (r : Fin 2000) (j : Fin 64) :
    k0_pay3 x0 x1 w0 w1 b (ix2 r j)
      = (∑ k : Fin 2, x0 (ix2 r k) * w0 (ix2 k j)) + b (ix2 0 j) + ∑ k : Fin 2, x1 (ix2 r k) * w1 (ix2 k j) := by
  unfold k0_pay3
  rw [addf_apply, addf_apply, matmul0_apply, matmul0_apply, shapeCast_self, shapeCast_self, broadcastTo_1b_ab_apply]
  simp only [truncf_apply]

theorem colsum0_apply (src : FVec Ideal S2000x64 .f32) (hφ : FKind.Formats .f32)
    (hacc : (0x00000000#32 : BitVec 32) = 0x00000000#32) (j : Fin 64) :
    multiReduction (F := Ideal) .add [0] S64 src 0x00000000#32 reduces_S2000x64_S64 hφ hacc (ix1 j)
      = ∑ r : Fin 2000, src (ix2 r j) := by
  refine (Ideal.multiReduction_add_single src 0x00000000#32 reduces_S2000x64_S64 hφ hacc (ix1 j)).trans ?_
  refine Finset.sum_congr rfl fun r _ => congrArg src (funext fun a => Fin.ext ?_)
  match a with
  | ⟨0, _⟩ => rfl
  | ⟨1, _⟩ => rfl

theorem pay4_apply (x0 x1 : Vec Ideal S2000x2 .f32) (w0 w1 : Vec Ideal S2x64 .f32) (b : Vec Ideal S1x64 .f32)
    (s : Vec Ideal S1x64 .f32) (j : Fin 64) :
    k0_pay4 x0 x1 w0 w1 b s (ix2 0 j) = s (ix2 0 j) + ∑ r : Fin 2000, k0_pay3 x0 x1 w0 w1 b (ix2 r j) := by
  unfold k0_pay4
  rw [addf_apply, shapeCast_self, shapeCast_a_1a_apply]
  exact congrArg (s (ix2 0 j) + ·) (colsum0_apply _ _ _ j)

theorem pay5_apply (x0 x1 : Vec Ideal S2000x2 .f32) (w0 w1 : Vec Ideal S2x64 .f32) (b : Vec Ideal S1x64 .f32)
    (q : Vec Ideal S1x64 .f32) (j : Fin 64) :
    k0_pay5 x0 x1 w0 w1 b q (ix2 0 j)
      = q (ix2 0 j) + ∑ r : Fin 2000, k0_pay3 x0 x1 w0 w1 b (ix2 r j) * k0_pay3 x0 x1 w0 w1 b (ix2 r j) := by
  unfold k0_pay5
  rw [addf_apply, shapeCast_self, shapeCast_a_1a_apply]
  exact congrArg (q (ix2 0 j) + ·) (colsum0_apply _ _ _ j)

theorem pay1_apply (i : S1x64.Idx) : (k0_pay1 (F := Ideal)) i = 0 := by
  unfold k0_pay1; rw [broadcast_apply]; exact Ideal.ofBits_zero_f32
theorem pay2_apply (i : S1x64.Idx) : (k0_pay2 (F := Ideal)) i = 0 := by
  unfold k0_pay2; rw [broadcast_apply]; exact Ideal.ofBits_zero_f32

theorem idx_facts0 : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0 :=
  (by decide +kernel : ∀ t : Fin grid0.N, _)

theorem iblk0_0_apply (c : Dev nD) (t : Fin cfg0.N) (r : Fin 2000) (k : Fin 2) (h : 2000 * t.val + r.val < 100000) :
    (iblk0 V c 0 t : Vec Ideal S2000x2 .f32) (ix2 r k) = (V c main_v24 : FVec Ideal S100000x2 .f32) (ix2 (⟨2000 * t.val + r.val, h⟩ : Fin 100000) k) := by
  obtain ⟨e0, e1, e2, e3, e4, e5, e6, e7, e8, e9, e10, e11, e12, e13, e14, e15⟩ := idx_facts0 t
  show V c main_v24 (((cfg0.win 0).blk t).view.emb (ix2 r k)) = V c main_v24 (ix2 (⟨2000 * t.val + r.val, h⟩ : Fin 100000) k)
  refine congrArg (V c main_v24) (funext fun a => Fin.ext ?_)
  match a with
  | ⟨0, _⟩ => show win0_0.index t (0 : Fin 2) * 2000 + 1 * r.val = 2000 * t.val + r.val; omega
  | ⟨1, _⟩ => show win0_0.index t (1 : Fin 2) * 2 + 1 * k.val = k.val; omega

theorem iblk0_1_apply (c : Dev nD) (t : Fin cfg0.N) (r : Fin 2000) (k : Fin 2) (h : 2000 * t.val + r.val < 100000) :
    (iblk0 V c 1 t : Vec Ideal S2000x2 .f32) (ix2 r k) = (V c main_arg0 : FVec Ideal S100000x2 .f32) (ix2 (⟨2000 * t.val + r.val, h⟩ : Fin 100000) k) := by
  obtain ⟨e0, e1, e2, e3, e4, e5, e6, e7, e8, e9, e10, e11, e12, e13, e14, e15⟩ := idx_facts0 t
  show V c main_arg0 (((cfg0.win 1).blk t).view.emb (ix2 r k)) = V c main_arg0 (ix2 (⟨2000 * t.val + r.val, h⟩ : Fin 100000) k)
  refine congrArg (V c main_arg0) (funext fun a => Fin.ext ?_)
  match a with
  | ⟨0, _⟩ => show win0_1.index t (0 : Fin 2) * 2000 + 1 * r.val = 2000 * t.val + r.val; omega
  | ⟨1, _⟩ => show win0_1.index t (1 : Fin 2) * 2 + 1 * k.val = k.val; omega

theorem iblk0_2_apply (c : Dev nD) (t : Fin cfg0.N) (k : Fin 2) (j : Fin 64) :
    (iblk0 V c 2 t : Vec Ideal S2x64 .f32) (ix2 k j) = (V c main_arg2 : FVec Ideal S2x64 .f32) (ix2 k j) := by
  obtain ⟨e0, e1, e2, e3, e4, e5, e6, e7, e8, e9, e10, e11, e12, e13, e14, e15⟩ := idx_facts0 t
  show V c main_arg2 (((cfg0.win 2).blk t).view.emb (ix2 k j)) = V c main_arg2 (ix2 k j)
  refine congrArg (V c main_arg2) (funext fun a => Fin.ext ?_)
  match a with
  | ⟨0, _⟩ => show win0_2.index t (0 : Fin 2) * 2 + 1 * k.val = k.val; omega
  | ⟨1, _⟩ => show win0_2.index t (1 : Fin 2) * 64 + 1 * j.val = j.val; omega

theorem iblk0_3_apply (c : Dev nD) (t : Fin cfg0.N) (z : Fin 1) (j : Fin 64) :
    (iblk0 V c 3 t : Vec Ideal S1x64 .f32) (ix2 z j) = (V c main_v25 : FVec Ideal S1x64 .f32) (ix2 z j) := by
  obtain ⟨e0, e1, e2, e3, e4, e5, e6, e7, e8, e9, e10, e11, e12, e13, e14, e15⟩ := idx_facts0 t
  show V c main_v25 (((cfg0.win 3).blk t).view.emb (ix2 z j)) = V c main_v25 (ix2 z j)
  refine congrArg (V c main_v25) (funext fun a => Fin.ext ?_)
  match a with
  | ⟨0, _⟩ => show win0_3.index t (0 : Fin 2) * 1 + 1 * z.val = z.val; omega
  | ⟨1, _⟩ => show win0_3.index t (1 : Fin 2) * 64 + 1 * j.val = j.val; omega

theorem iblk0_4_apply (c : Dev nD) (t : Fin cfg0.N) (k : Fin 2) (j : Fin 64) :
    (iblk0 V c 4 t : Vec Ideal S2x64 .f32) (ix2 k j) = (V c main_arg4 : FVec Ideal S2x64 .f32) (ix2 k j) := by
  obtain ⟨e0, e1, e2, e3, e4, e5, e6, e7, e8, e9, e10, e11, e12, e13, e14, e15⟩ := idx_facts0 t
  show V c main_arg4 (((cfg0.win 4).blk t).view.emb (ix2 k j)) = V c main_arg4 (ix2 k j)
  refine congrArg (V c main_arg4) (funext fun a => Fin.ext ?_)
  match a with
  | ⟨0, _⟩ => show win0_4.index t (0 : Fin 2) * 2 + 1 * k.val = k.val; omega
  | ⟨1, _⟩ => show win0_4.index t (1 : Fin 2) * 64 + 1 * j.val = j.val; omega

theorem hblk0_apply (c : Dev nD) (t : Fin cfg0.N) (r : Fin 2000) (j : Fin 64) (h : 2000 * t.val + r.val < 100000) :
    (hblk0 V c t) (ix2 r j) = hpre0 V c ⟨2000 * t.val + r.val, h⟩ j := by
  unfold hblk0
  rw [pay3_apply]
  simp only [iblk0_0_apply V c t _ _ h, iblk0_1_apply V c t _ _ h, iblk0_2_apply V c t, iblk0_3_apply V c t, iblk0_4_apply V c t]
  rfl

abbrev harr0 (c : Dev nD) : Buf (Elt Ideal) ((c : Thread nD τ).loc main_v26_0) :=
  fun i => hpre0 V c ⟨(i 0).val, idx2_lt0 i⟩ ⟨(i 1).val, idx2_lt1 i⟩

theorem flushed0_5_eq (c : Dev nD) (t : Fin cfg0.N) :
    (dat0 V c).flushed 5 t = ((cfg0.win 5).blk t).view.read (Elt Ideal) (harr0 V c) := by
  show (cfg0.win 5).cut (grid0.coords t) ((dat0 V c).after 5 t) = _
  rw [after0_5]
  have hN : t.val < 50 := lt_of_lt_of_eq t.isLt (show cfg0.N = 50 from N_0)
  obtain ⟨e0, e1, e2, e3, e4, e5, e6, e7, e8, e9, e10, e11, e12, e13, e14, e15⟩ := idx_facts0 t
  funext y
  obtain ⟨r, j, rfl⟩ : ∃ (r : Fin 2000) (j : Fin 64), y = ix2 r j := ⟨y 0, y 1, eq_ix2 y⟩
  have hr : r.val < 2000 := r.isLt
  show (hblk0 V c t) (ix2 r j) = harr0 V c (((cfg0.win 5).blk t).view.emb (ix2 r j))
  rw [hblk0_apply V c t r j (by omega)]
  show hpre0 V c _ _ = hpre0 V c _ _
  congr 1
  · apply Fin.ext
    show 2000 * t.val + r.val = win0_5.index t (0 : Fin 2) * 2000 + 1 * r.val
    omega
  · apply Fin.ext
    show j.val = win0_5.index t (1 : Fin 2) * 64 + 1 * j.val
    omega

theorem mem_blk0_5 (t : Fin cfg0.N) (i : S100000x64.Idx) :
    i ∈ ((cfg0.win 5).blk t).view.set ↔ ∀ a : Fin 2, win0_5.index t a * S2000x64.size a ≤ (i a).val ∧ (i a).val < win0_5.index t a * S2000x64.size a + S2000x64.size a := by
  show i ∈ ((View.whole main_v26_0).slice (win0_5.rect t)).set ↔ _
  rw [View.set_slice_whole, Rect.mem_set_unit]
  exact Iff.rfl

theorem cover0_5 (i : S100000x64.Idx) :
    ∃ t : Fin cfg0.N, (cfg0.win 5).flush t = true ∧ i ∈ ((cfg0.win 5).blk t).view.set := by
  have hi0 : (i 0).val < 100000 := (i 0).isLt
  have hi1 : (i 1).val < 64 := (i 1).isLt
  have hN : cfg0.N = 50 := N_0
  refine ⟨⟨(i 0).val / 2000, by rw [hN]; omega⟩, flush0_5 _, ?_⟩
  rw [mem_blk0_5]
  obtain ⟨e0, e1, e2, e3, e4, e5, e6, e7, e8, e9, e10, e11, e12, e13, e14, e15⟩ := idx_facts0 ⟨(i 0).val / 2000, by rw [hN]; omega⟩
  intro a
  match a with
  | ⟨0, _⟩ => show win0_5.index _ (0 : Fin 2) * 2000 ≤ (i 0).val ∧ (i 0).val < win0_5.index _ (0 : Fin 2) * 2000 + 2000; rw [e10]; dsimp only; omega
  | ⟨1, _⟩ => show win0_5.index _ (1 : Fin 2) * 64 ≤ (i 1).val ∧ (i 1).val < win0_5.index _ (1 : Fin 2) * 64 + 64; rw [e11]; omega

theorem final0_5 (c : Dev nD) : (dat0 V c).arrAt 5 cfg0.N = harr0 V c :=
  (dat0 V c).arrAt_eq_of_cover 5 (harr0 V c) (fun t _ => flushed0_5_eq V c t) cover0_5

def rowfn (f : Fin 100000 → EReal) (m : ℕ) : EReal := if h : m < 100000 then f ⟨m, h⟩ else 0

theorem sum_rowfn (f : Fin 100000 → EReal) : ∑ m ∈ Finset.range 100000, rowfn f m = ∑ i, f i := by
  rw [Finset.sum_range]
  exact Finset.sum_congr rfl fun i _ => dif_pos i.isLt

theorem hblk0_row (c : Dev nD) (t : Fin cfg0.N) (r : Fin 2000) (j : Fin 64) :
    (hblk0 V c t) (ix2 r j) = rowfn (fun i => hpre0 V c i j) (2000 * t.val + r.val) := by
  have hN : t.val < 50 := lt_of_lt_of_eq t.isLt (show cfg0.N = 50 from N_0)
  have hr : r.val < 2000 := r.isLt
  have h : 2000 * t.val + r.val < 100000 := by omega
  rw [hblk0_apply V c t r j h]
  unfold rowfn
  rw [dif_pos h]

theorem rowfn_sq (c : Dev nD) (j : Fin 64) (m : ℕ) :
    rowfn (fun i => hpre0 V c i j) m * rowfn (fun i => hpre0 V c i j) m = rowfn (fun i => hpre0 V c i j * hpre0 V c i j) m := by
  unfold rowfn
  by_cases h : m < 100000
  · rw [dif_pos h, dif_pos h]
  · rw [dif_neg h, dif_neg h, mul_zero]

theorem sumAt0_eq (c : Dev nD) (j : Fin 64) : ∀ (n : ℕ) (h : n < cfg0.N),
    (sumAt0 V c n h) (ix2 0 j) = ∑ m ∈ Finset.range (2000 * (n + 1)), rowfn (fun i => hpre0 V c i j) m
  | 0, h => by
    refine (congrFun (sumAt0_first V c ⟨0, h⟩ rfl) (ix2 0 j)).trans ?_
    rw [pay4_apply, pay1_apply, zero_add, show 2000 * (0 + 1) = 2000 from rfl, Finset.sum_range]
    refine Finset.sum_congr rfl fun r _ => ?_
    have e := hblk0_row V c ⟨0, h⟩ r j
    rw [show 2000 * (⟨0, h⟩ : Fin cfg0.N).val + r.val = r.val from by simp] at e
    exact e
  | n + 1, h => by
    refine (congrFun (sumAt0_later V c ⟨n + 1, h⟩ (Nat.succ_ne_zero n)) (ix2 0 j)).trans ?_
    rw [pay4_apply]
    show (sumAt0 V c n _) (ix2 0 j) + _ = _
    rw [sumAt0_eq c j n, show 2000 * (n + 1 + 1) = 2000 * (n + 1) + 2000 from by ring, Finset.sum_range_add,
      Finset.sum_range (n := 2000)]
    refine congrArg _ (Finset.sum_congr rfl fun r _ => ?_)
    have e := hblk0_row V c ⟨n + 1, h⟩ r j
    exact e

abbrev sarr0 (c : Dev nD) : Buf (Elt Ideal) ((c : Thread nD τ).loc main_v26_1) :=
  sumAt0 V c 49 (by rw [show cfg0.N = 50 from N_0]; decide)

theorem flushed0_6_eq (c : Dev nD) (t : Fin cfg0.N) (hf : (cfg0.win 6).flush t = true) :
    (dat0 V c).flushed 6 t = ((cfg0.win 6).blk t).view.read (Elt Ideal) (sarr0 V c) := by
  have hN : t.val < 50 := lt_of_lt_of_eq t.isLt (show cfg0.N = 50 from N_0)
  have h49 : t.val = 49 := by have := (flush0_6 t).mp hf; omega
  obtain ⟨e0, e1, e2, e3, e4, e5, e6, e7, e8, e9, e10, e11, e12, e13, e14, e15⟩ := idx_facts0 t
  obtain ⟨n, hn⟩ := t
  dsimp only at h49
  subst h49
  show (cfg0.win 6).cut (grid0.coords _) ((dat0 V c).after 6 _) = _
  rw [after0_6]
  funext y
  show (sumAt0 V c 49 _) y = (sumAt0 V c 49 _) (((cfg0.win 6).blk _).view.emb y)
  refine congrArg _ (funext fun a => Fin.ext ?_)
  match a with
  | ⟨0, _⟩ => show (y 0).val = win0_6.index _ (0 : Fin 2) * 1 + 1 * (y 0).val; omega
  | ⟨1, _⟩ => show (y 1).val = win0_6.index _ (1 : Fin 2) * 64 + 1 * (y 1).val; omega

theorem mem_blk0_6 (t : Fin cfg0.N) (i : S1x64.Idx) :
    i ∈ ((cfg0.win 6).blk t).view.set ↔ ∀ a : Fin 2, win0_6.index t a * S1x64.size a ≤ (i a).val ∧ (i a).val < win0_6.index t a * S1x64.size a + S1x64.size a := by
  show i ∈ ((View.whole main_v26_1).slice (win0_6.rect t)).set ↔ _
  rw [View.set_slice_whole, Rect.mem_set_unit]
  exact Iff.rfl

theorem cover0_6 (i : S1x64.Idx) :
    ∃ t : Fin cfg0.N, (cfg0.win 6).flush t = true ∧ i ∈ ((cfg0.win 6).blk t).view.set := by
  have hi0 : (i 0).val < 1 := (i 0).isLt
  have hi1 : (i 1).val < 64 := (i 1).isLt
  have hN : cfg0.N = 50 := N_0
  refine ⟨⟨49, by rw [hN]; decide⟩, (flush0_6 _).mpr rfl, ?_⟩
  obtain ⟨e0, e1, e2, e3, e4, e5, e6, e7, e8, e9, e10, e11, e12, e13, e14, e15⟩ := idx_facts0 ⟨49, by rw [hN]; decide⟩
  rw [mem_blk0_6]
  intro a
  match a with
  | ⟨0, _⟩ => show win0_6.index _ (0 : Fin 2) * 1 ≤ (i 0).val ∧ (i 0).val < win0_6.index _ (0 : Fin 2) * 1 + 1; omega
  | ⟨1, _⟩ => show win0_6.index _ (1 : Fin 2) * 64 ≤ (i 1).val ∧ (i 1).val < win0_6.index _ (1 : Fin 2) * 64 + 64; omega

theorem final0_6 (c : Dev nD) : (dat0 V c).arrAt 6 cfg0.N = sarr0 V c :=
  (dat0 V c).arrAt_eq_of_cover 6 (sarr0 V c) (flushed0_6_eq V c) cover0_6

theorem sqAt0_eq (c : Dev nD) (j : Fin 64) : ∀ (n : ℕ) (h : n < cfg0.N),
    (sqAt0 V c n h) (ix2 0 j) = ∑ m ∈ Finset.range (2000 * (n + 1)), rowfn (fun i => hpre0 V c i j * hpre0 V c i j) m
  | 0, h => by
    refine (congrFun (sqAt0_first V c ⟨0, h⟩ rfl) (ix2 0 j)).trans ?_
    rw [pay5_apply, pay2_apply, zero_add, show 2000 * (0 + 1) = 2000 from rfl, Finset.sum_range]
    refine Finset.sum_congr rfl fun r _ => ?_
    have e := hblk0_row V c ⟨0, h⟩ r j
    rw [show 2000 * (⟨0, h⟩ : Fin cfg0.N).val + r.val = r.val from by simp] at e
    exact (congrArg₂ (· * ·) e e).trans (rowfn_sq V c j _)
  | n + 1, h => by
    refine (congrFun (sqAt0_later V c ⟨n + 1, h⟩ (Nat.succ_ne_zero n)) (ix2 0 j)).trans ?_
    rw [pay5_apply]
    show (sqAt0 V c n _) (ix2 0 j) + _ = _
    rw [sqAt0_eq c j n, show 2000 * (n + 1 + 1) = 2000 * (n + 1) + 2000 from by ring, Finset.sum_range_add,
      Finset.sum_range (n := 2000)]
    refine congrArg _ (Finset.sum_congr rfl fun r _ => ?_)
    have e := hblk0_row V c ⟨n + 1, h⟩ r j
    exact (congrArg₂ (· * ·) e e).trans (rowfn_sq V c j _)

abbrev qarr0 (c : Dev nD) : Buf (Elt Ideal) ((c : Thread nD τ).loc main_v26_2) :=
  sqAt0 V c 49 (by rw [show cfg0.N = 50 from N_0]; decide)

theorem flushed0_7_eq (c : Dev nD) (t : Fin cfg0.N) (hf : (cfg0.win 7).flush t = true) :
    (dat0 V c).flushed 7 t = ((cfg0.win 7).blk t).view.read (Elt Ideal) (qarr0 V c) := by
  have hN : t.val < 50 := lt_of_lt_of_eq t.isLt (show cfg0.N = 50 from N_0)
  have h49 : t.val = 49 := by have := (flush0_7 t).mp hf; omega
  obtain ⟨e0, e1, e2, e3, e4, e5, e6, e7, e8, e9, e10, e11, e12, e13, e14, e15⟩ := idx_facts0 t
  obtain ⟨n, hn⟩ := t
  dsimp only at h49
  subst h49
  show (cfg0.win 7).cut (grid0.coords _) ((dat0 V c).after 7 _) = _
  rw [after0_7]
  funext y
  show (sqAt0 V c 49 _) y = (sqAt0 V c 49 _) (((cfg0.win 7).blk _).view.emb y)
  refine congrArg _ (funext fun a => Fin.ext ?_)
  match a with
  | ⟨0, _⟩ => show (y 0).val = win0_7.index _ (0 : Fin 2) * 1 + 1 * (y 0).val; omega
  | ⟨1, _⟩ => show (y 1).val = win0_7.index _ (1 : Fin 2) * 64 + 1 * (y 1).val; omega

theorem mem_blk0_7 (t : Fin cfg0.N) (i : S1x64.Idx) :
    i ∈ ((cfg0.win 7).blk t).view.set ↔ ∀ a : Fin 2, win0_7.index t a * S1x64.size a ≤ (i a).val ∧ (i a).val < win0_7.index t a * S1x64.size a + S1x64.size a := by
  show i ∈ ((View.whole main_v26_2).slice (win0_7.rect t)).set ↔ _
  rw [View.set_slice_whole, Rect.mem_set_unit]
  exact Iff.rfl

theorem cover0_7 (i : S1x64.Idx) :
    ∃ t : Fin cfg0.N, (cfg0.win 7).flush t = true ∧ i ∈ ((cfg0.win 7).blk t).view.set := by
  have hi0 : (i 0).val < 1 := (i 0).isLt
  have hi1 : (i 1).val < 64 := (i 1).isLt
  have hN : cfg0.N = 50 := N_0
  refine ⟨⟨49, by rw [hN]; decide⟩, (flush0_7 _).mpr rfl, ?_⟩
  obtain ⟨e0, e1, e2, e3, e4, e5, e6, e7, e8, e9, e10, e11, e12, e13, e14, e15⟩ := idx_facts0 ⟨49, by rw [hN]; decide⟩
  rw [mem_blk0_7]
  intro a
  match a with
  | ⟨0, _⟩ => show win0_7.index _ (0 : Fin 2) * 1 ≤ (i 0).val ∧ (i 0).val < win0_7.index _ (0 : Fin 2) * 1 + 1; omega
  | ⟨1, _⟩ => show win0_7.index _ (1 : Fin 2) * 64 ≤ (i 1).val ∧ (i 1).val < win0_7.index _ (1 : Fin 2) * 64 + 64; omega

theorem final0_7 (c : Dev nD) : (dat0 V c).arrAt 7 cfg0.N = qarr0 V c :=
  (dat0 V c).arrAt_eq_of_cover 7 (qarr0 V c) (flushed0_7_eq V c) cover0_7

end K0

open K0

theorem val0_h (c : Dev nD) (i : Fin 100000) (j : Fin 64) :
    ((dat0 V c).arrAt 5 cfg0.N : FVec Ideal S100000x64 .f32) (ix2 i j) = hpre0 V c i j := by
  rw [final0_5]
  rfl

/-- The blocks' column sums, added up from zero, are the column's sum over all rows. -/
theorem val0_sum (c : Dev nD) (j : Fin 64) :
    ((dat0 V c).arrAt 6 cfg0.N : FVec Ideal S1x64 .f32) (ix2 0 j) = ∑ i, hpre0 V c i j := by
  rw [final0_6]
  show (sumAt0 V c 49 _) (ix2 0 j) = _
  rw [sumAt0_eq V c j 49, show 2000 * (49 + 1) = 100000 from rfl, sum_rowfn]

theorem val0_sq (c : Dev nD) (j : Fin 64) :
    ((dat0 V c).arrAt 7 cfg0.N : FVec Ideal S1x64 .f32) (ix2 0 j) = ∑ i, hpre0 V c i j * hpre0 V c i j := by
  rw [final0_7]
  show (sqAt0 V c 49 _) (ix2 0 j) = _
  rw [sqAt0_eq V c j 49, show 2000 * (49 + 1) = 100000 from rfl, sum_rowfn]

end Cert.KernelIdeal.Hand

end
-- ==== Proof.Val.K1.lean ====
import proofs.«120156_j16690242912872_1_alg».proof.Proof.KI.R1
import proofs.«120156_j16690242912872_1_alg».proof.Proof.Val.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Idealize.ShloMosaic Idealize.ShloMosaic.TcCoe Idealize.ShloMosaic.ValueIdx
open Idealize.ShloMosaic.Pipeline (Dat Cfg Window)
open Cert.KernelIdeal Cert.KernelIdeal.Gen
open scoped BigOperators

variable (V : (c : Dev nD) → (b : Ref sig .tc) → Buf (Elt Ideal) ((c : Thread nD τ).loc b))

namespace K1

theorem row_down_apply (x : Vec Ideal S1x64 .f32) (r : Fin 2000) (j : Fin 64) :
    broadcastTo S2000x64 x broadcasts_S1x64_S2000x64 (ix2 r j) = x (ix2 0 j) :=
  broadcastTo_apply x _ (ix2 r j) (ix2 0 j) (fun a => by
    match a with
    | ⟨0, _⟩ => rfl
    | ⟨1, _⟩ => rfl)

theorem pay1_apply (x0 : Vec Ideal S2000x64 .f32) (x1 x2 : Vec Ideal S1x64 .f32) (r : Fin 2000) (j : Fin 64) :
    k1_pay1 x0 x1 x2 (ix2 r j) = max (x0 (ix2 r j) * x1 (ix2 0 j) + x2 (ix2 0 j)) Cert.Spec.zero := by
  unfold k1_pay1
  rw [maximumf_apply, addf_apply, mulf_apply, broadcast_apply, row_down_apply, row_down_apply,
    shapeCast_self, shapeCast_self, shapeCast_self]
  rfl

theorem idx_facts1 : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

abbrev arrPre1 (c : Dev nD) : S100000x64.Idx → EReal := (V c main_v26_0 : FVec Ideal S100000x64 .f32)
abbrev arrScale1 (c : Dev nD) : S1x64.Idx → EReal := (V c main_v37 : FVec Ideal S1x64 .f32)
abbrev arrShift1 (c : Dev nD) : S1x64.Idx → EReal := (V c main_v40 : FVec Ideal S1x64 .f32)

abbrev G1 (c : Dev nD) : S100000x64.Idx → EReal := fun i =>
  max (arrPre1 V c i * arrScale1 V c (ix2 0 (i 1)) + arrShift1 V c (ix2 0 (i 1))) Cert.Spec.zero

theorem flushed1_eq (c : Dev nD) (t : Fin cfg1.N) :
    (dat1 V c).flushed 3 t = ((cfg1.win 3).blk t).view.read (Elt Ideal) (G1 V c) := by
  show (cfg1.win 3).cut (grid1.coords t) ((dat1 V c).after 3 t) = _
  rw [after1_3]
  unfold out1_3
  obtain ⟨e00, e01, e10, e11, e20, e21, e30, e31⟩ := idx_facts1 t
  funext y
  obtain ⟨r, j, rfl⟩ : ∃ (r : Fin 2000) (j : Fin 64), y = ix2 r j := ⟨y 0, y 1, eq_ix2 y⟩
  show k1_pay1 (iblk1 V c 0 t) (iblk1 V c 1 t) (iblk1 V c 2 t) (ix2 r j) = G1 V c (((cfg1.win 3).blk t).view.emb (ix2 r j))
  rw [pay1_apply]
  have h0 : iblk1 V c 0 t (ix2 r j) = arrPre1 V c (((cfg1.win 3).blk t).view.emb (ix2 r j)) := by
    show arrPre1 V c (((cfg1.win 0).blk t).view.emb (ix2 r j)) = _
    refine congrArg _ ?_
    funext a; apply Fin.ext
    match a with
    | ⟨0, _⟩ => show win1_0.index t (0 : Fin 2) * 2000 + 1 * r.val = win1_3.index t (0 : Fin 2) * 2000 + 1 * r.val; omega
    | ⟨1, _⟩ => show win1_0.index t (1 : Fin 2) * 64 + 1 * j.val = win1_3.index t (1 : Fin 2) * 64 + 1 * j.val; omega
  have h1 : iblk1 V c 1 t (ix2 0 j) = arrScale1 V c (ix2 0 j) := by
    show arrScale1 V c (((cfg1.win 1).blk t).view.emb (ix2 0 j)) = _
    refine congrArg _ ?_
    funext a; apply Fin.ext
    match a with
    | ⟨0, _⟩ => show win1_1.index t (0 : Fin 2) * 1 + 1 * 0 = 0; omega
    | ⟨1, _⟩ => show win1_1.index t (1 : Fin 2) * 64 + 1 * j.val = j.val; omega
  have h2 : iblk1 V c 2 t (ix2 0 j) = arrShift1 V c (ix2 0 j) := by
    show arrShift1 V c (((cfg1.win 2).blk t).view.emb (ix2 0 j)) = _
    refine congrArg _ ?_
    funext a; apply Fin.ext
    match a with
    | ⟨0, _⟩ => show win1_2.index t (0 : Fin 2) * 1 + 1 * 0 = 0; omega
    | ⟨1, _⟩ => show win1_2.index t (1 : Fin 2) * 64 + 1 * j.val = j.val; omega
  have hcol : (((cfg1.win 3).blk t).view.emb (ix2 r j)) 1 = j := by
    apply Fin.ext
    show win1_3.index t (1 : Fin 2) * 64 + 1 * j.val = j.val; omega
  rw [h0, h1, h2]
  show _ = max (arrPre1 V c (((cfg1.win 3).blk t).view.emb (ix2 r j))
      * arrScale1 V c (ix2 0 ((((cfg1.win 3).blk t).view.emb (ix2 r j)) 1))
      + arrShift1 V c (ix2 0 ((((cfg1.win 3).blk t).view.emb (ix2 r j)) 1))) Cert.Spec.zero
  rw [hcol]

theorem mem_blk1 (t : Fin cfg1.N) (i : S100000x64.Idx) :
    i ∈ ((cfg1.win 3).blk t).view.set ↔ ∀ a : Fin 2, win1_3.index t a * S2000x64.size a ≤ (i a).val
      ∧ (i a).val < win1_3.index t a * S2000x64.size a + S2000x64.size a := by
  show i ∈ ((View.whole main_v41).slice (win1_3.rect t)).set ↔ _
  rw [View.set_slice_whole, Rect.mem_set_unit]
  exact Iff.rfl

end K1

open K1

abbrev pre1 (c : Dev nD) : Fin 100000 → Fin 64 → EReal := fun i j => (V c main_v26_0 : FVec Ideal S100000x64 .f32) (ix2 i j)
abbrev scale1 (c : Dev nD) : Fin 64 → EReal := fun j => (V c main_v37 : FVec Ideal S1x64 .f32) (ix2 0 j)
abbrev shift1 (c : Dev nD) : Fin 64 → EReal := fun j => (V c main_v40 : FVec Ideal S1x64 .f32) (ix2 0 j)

theorem val1 (c : Dev nD) (i : Fin 100000) (j : Fin 64) :
    ((dat1 V c).arrAt 3 cfg1.N : FVec Ideal S100000x64 .f32) (ix2 i j)
      = max (pre1 V c i j * scale1 V c j + shift1 V c j) Cert.Spec.zero := by
  have ht : i.val / 2000 < cfg1.N := by
    show i.val / 2000 < grid1.N
    rw [N_1]; have := i.isLt; omega
  obtain ⟨e00, e01, e10, e11, e20, e21, e30, e31⟩ := idx_facts1 ⟨i.val / 2000, ht⟩
  have e30' : win1_3.index ⟨i.val / 2000, ht⟩ (0 : Fin 2) = i.val / 2000 := e30
  exact (dat1 V c).arrAt_apply_of_mem 3 (G1 V c) (fun t _ => flushed1_eq V c t) cfg1.N ⟨i.val / 2000, ht⟩ (ix2 i j) ht
    (flush1_3 _) (by
      rw [mem_blk1]
      intro a
      match a with
      | ⟨0, _⟩ =>
        show win1_3.index ⟨i.val / 2000, ht⟩ (0 : Fin 2) * 2000 ≤ i.val ∧ i.val < win1_3.index ⟨i.val / 2000, ht⟩ (0 : Fin 2) * 2000 + 2000
        omega
      | ⟨1, _⟩ =>
        show win1_3.index ⟨i.val / 2000, ht⟩ (1 : Fin 2) * 64 ≤ j.val ∧ j.val < win1_3.index ⟨i.val / 2000, ht⟩ (1 : Fin 2) * 64 + 64
        have := j.isLt; omega)

end Cert.KernelIdeal.Hand

end
-- ==== Proof.Val.K2.lean ====
import proofs.«120156_j16690242912872_1_alg».proof.Proof.KI.R2
import proofs.«120156_j16690242912872_1_alg».proof.Proof.Val.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Idealize.ShloMosaic Idealize.ShloMosaic.TcCoe Idealize.ShloMosaic.ValueIdx
open Idealize.ShloMosaic.Pipeline (Dat Cfg Window)
open Cert.KernelIdeal Cert.KernelIdeal.Gen
open scoped BigOperators

variable (V : (c : Dev nD) → (b : Ref sig .tc) → Buf (Elt Ideal) ((c : Thread nD τ).loc b))

abbrev mean2 (c : Dev nD) : Fin 100000 → Fin 64 → EReal := fun i q => (V c main_v54 : FVec Ideal S100000x64 .f32) (ix2 i q)
abbrev feat2 (c : Dev nD) : Fin 100000 → Fin 64 → EReal := fun i q => (V c main_v41 : FVec Ideal S100000x64 .f32) (ix2 i q)
abbrev wl2 (c : Dev nD) : Fin 64 → Fin 64 → EReal := fun q j => (V c main_arg5 : FVec Ideal S64x64 .f32) (ix2 q j)
abbrev wr2 (c : Dev nD) : Fin 64 → Fin 64 → EReal := fun q j => (V c main_arg7 : FVec Ideal S64x64 .f32) (ix2 q j)
abbrev bias2 (c : Dev nD) : Fin 64 → EReal := fun j => (V c main_v55 : FVec Ideal S1x64 .f32) (ix2 0 j)

abbrev hpre2 (c : Dev nD) : Fin 100000 → Fin 64 → EReal :=
  Cert.Spec.lin (mean2 V c) (feat2 V c) (wl2 V c) (wr2 V c) (bias2 V c)

namespace K2

theorem dot2_lhs_0 (i : S2000x64.Idx) (q : dot_S2000x64_S64x64_S2000x64_1_0_0_1_n_n.contr.Idx) :
    (dot_S2000x64_S64x64_S2000x64_1_0_0_1_n_n.lhsIdx i q 0).val = (i 0).val := by
  unfold DotDims.lhsIdx
  rw [dif_neg (show ¬(0 : Fin S2000x64.rank) ∈ dot_S2000x64_S64x64_S2000x64_1_0_0_1_n_n.lhsBatch by decide), dif_pos (show (0 : Fin S2000x64.rank) ∈ dot_S2000x64_S64x64_S2000x64_1_0_0_1_n_n.lhsNonContracting by decide)]
  rfl

theorem dot2_lhs_1 (i : S2000x64.Idx) (q : dot_S2000x64_S64x64_S2000x64_1_0_0_1_n_n.contr.Idx) :
    (dot_S2000x64_S64x64_S2000x64_1_0_0_1_n_n.lhsIdx i q 1).val = (q ⟨0, by decide⟩).val :=
  dot_S2000x64_S64x64_S2000x64_1_0_0_1_n_n.lhsIdx_val_of_single rfl i q

theorem dot2_rhs_0 (i : S2000x64.Idx) (q : dot_S2000x64_S64x64_S2000x64_1_0_0_1_n_n.contr.Idx) :
    (dot_S2000x64_S64x64_S2000x64_1_0_0_1_n_n.rhsIdx i q 0).val = (q ⟨0, by decide⟩).val :=
  dot_S2000x64_S64x64_S2000x64_1_0_0_1_n_n.rhsIdx_val_of_single rfl i q

theorem dot2_rhs_1 (i : S2000x64.Idx) (q : dot_S2000x64_S64x64_S2000x64_1_0_0_1_n_n.contr.Idx) :
    (dot_S2000x64_S64x64_S2000x64_1_0_0_1_n_n.rhsIdx i q 1).val = (i 1).val := by
  unfold DotDims.rhsIdx
  rw [dif_neg (show ¬(1 : Fin S64x64.rank) ∈ dot_S2000x64_S64x64_S2000x64_1_0_0_1_n_n.rhsBatch by decide), dif_pos (show (1 : Fin S64x64.rank) ∈ dot_S2000x64_S64x64_S2000x64_1_0_0_1_n_n.rhsNonContracting by decide)]
  rfl

theorem matmul2_apply (a : FVec Ideal S2000x64 .bf16) (b : FVec Ideal S64x64 .bf16) (r : Fin 2000) (j : Fin 64) :
    matmul dot_S2000x64_S64x64_S2000x64_1_0_0_1_n_n none a b (constant (F := Ideal) S2000x64 .f32 0x00000000#32) (ix2 r j)
      = ∑ k : Fin 64, a (ix2 r k) * b (ix2 k j) := by
  simp only [matmul]
  rw [Ideal.matmul_constant_zero_apply, ← Equiv.sum_comp (ValueIdx.contrEquiv1 dot_S2000x64_S64x64_S2000x64_1_0_0_1_n_n 64 rfl rfl).symm]
  refine Finset.sum_congr rfl fun k _ => ?_
  have hk := ValueIdx.contrEquiv1_symm_val dot_S2000x64_S64x64_S2000x64_1_0_0_1_n_n 64 rfl rfl k
  have el : dot_S2000x64_S64x64_S2000x64_1_0_0_1_n_n.lhsIdx (ix2 r j) ((ValueIdx.contrEquiv1 dot_S2000x64_S64x64_S2000x64_1_0_0_1_n_n 64 rfl rfl).symm k) = ix2 r k := funext fun a => Fin.ext (by
    match a with
    | ⟨0, _⟩ => exact dot2_lhs_0 _ _
    | ⟨1, _⟩ => exact (dot2_lhs_1 _ _).trans hk)
  have er : dot_S2000x64_S64x64_S2000x64_1_0_0_1_n_n.rhsIdx (ix2 r j) ((ValueIdx.contrEquiv1 dot_S2000x64_S64x64_S2000x64_1_0_0_1_n_n 64 rfl rfl).symm k) = ix2 k j := funext fun a => Fin.ext (by
    match a with
    | ⟨0, _⟩ => exact (dot2_rhs_0 _ _).trans hk
    | ⟨1, _⟩ => exact dot2_rhs_1 _ _)
  rw [el, er]

theorem bias2_spread_apply (b : FVec Ideal S1x64 .f32) (r : Fin 2000) (j : Fin 64) :
    broadcastTo S2000x64 b broadcasts_S1x64_S2000x64 (ix2 r j) = b (ix2 0 j) :=
  broadcastTo_apply b broadcasts_S1x64_S2000x64 (ix2 r j) (ix2 0 j) (fun a => match a with
    | ⟨0, _⟩ => by show 0 = if (1 : Nat) = 1 then 0 else r.val; rw [if_pos rfl]
    | ⟨1, _⟩ => by show j.val = if (64 : Nat) = 1 then 0 else j.val; rw [if_neg (by decide)])

theorem k2_pay4_apply (x0 x1 : Vec Ideal S2000x64 .f32) (x2 x4 : Vec Ideal S64x64 .f32) (x3 : Vec Ideal S1x64 .f32)
    (r : Fin 2000) (j : Fin 64) :
    k2_pay4 x0 x1 x2 x4 x3 (ix2 r j)
      = (∑ k : Fin 64, x0 (ix2 r k) * x2 (ix2 k j)) + x3 (ix2 0 j) + ∑ k : Fin 64, x1 (ix2 r k) * x4 (ix2 k j) := by
  unfold k2_pay4
  rw [addf_apply, addf_apply, matmul2_apply, matmul2_apply, bias2_spread_apply]
  simp only [truncf_apply, shapeCast_self]

theorem colsum2_apply (v : FVec Ideal S2000x64 .f32) (hφ : FKind.Formats .f32)
    (hacc : (0x00000000#32 : BitVec 32) = FKind.add.neutral .f32 hφ) (j : Fin 64) :
    shapeCast S1x64 (multiReduction (F := Ideal) .add [0] S64 v 0x00000000#32 reduces_S2000x64_S64 hφ hacc) shapeCasts_S64_S1x64 (ix2 0 j)
      = ∑ r : Fin 2000, v (ix2 r j) := by
  refine (shapeCast_apply _ shapeCasts_S64_S1x64 (ix2 0 j) (ix1 j) ?_).trans ?_
  · rw [Shape.rowMajor_val_one, Shape.rowMajor_val_two]
    show j.val = 0 * 64 + j.val
    omega
  · refine (Ideal.multiReduction_add_single v 0x00000000#32 reduces_S2000x64_S64 hφ hacc (ix1 j)).trans ?_
    refine Finset.sum_congr rfl fun r _ => congrArg v (funext fun a => Fin.ext ?_)
    match a with
    | ⟨0, _⟩ => rfl
    | ⟨1, _⟩ => rfl

theorem k2_pay5_apply (x0 x1 : Vec Ideal S2000x64 .f32) (x2 x4 : Vec Ideal S64x64 .f32) (x3 : Vec Ideal S1x64 .f32)
    (s : Vec Ideal S1x64 .f32) (j : Fin 64) :
    k2_pay5 x0 x1 x2 x4 x3 s (ix2 0 j) = s (ix2 0 j) + ∑ r : Fin 2000, k2_pay4 x0 x1 x2 x4 x3 (ix2 r j) := by
  unfold k2_pay5
  rw [addf_apply, shapeCast_self]
  exact congrArg (s (ix2 0 j) + ·) (colsum2_apply (k2_pay4 x0 x1 x2 x4 x3) _ _ j)

theorem k2_pay7_apply (x0 x1 : Vec Ideal S2000x64 .f32) (x2 x4 : Vec Ideal S64x64 .f32) (x3 : Vec Ideal S1x64 .f32) (j : Fin 64) :
    k2_pay7 x0 x1 x2 x4 x3 (ix2 0 j) = ∑ r : Fin 2000, k2_pay4 x0 x1 x2 x4 x3 (ix2 r j) * k2_pay4 x0 x1 x2 x4 x3 (ix2 r j) := by
  unfold k2_pay7
  exact colsum2_apply (mulf (k2_pay4 x0 x1 x2 x4 x3) (k2_pay4 x0 x1 x2 x4 x3)) _ _ j

theorem k2_pay1_apply (x0 x1 : Vec Ideal S2000x64 .f32) (x2 x4 : Vec Ideal S64x64 .f32) (x3 : Vec Ideal S1x64 .f32)
    (q : Vec Ideal S1x64 .f32) (j : Fin 64) :
    k2_pay1 (k2_pay6 q) (k2_pay7 x0 x1 x2 x4 x3) (ix2 0 j)
      = q (ix2 0 j) + ∑ r : Fin 2000, k2_pay4 x0 x1 x2 x4 x3 (ix2 r j) * k2_pay4 x0 x1 x2 x4 x3 (ix2 r j) := by
  unfold k2_pay1 k2_pay6
  rw [addf_apply, shapeCast_self, k2_pay7_apply]

theorem k2_pay2_apply (i : S1x64.Idx) : (k2_pay2 (F := Ideal)) i = 0 := Ideal.ofBits_zero_f32

theorem k2_pay3_apply (i : S1x64.Idx) : (k2_pay3 (F := Ideal)) i = 0 := Ideal.ofBits_zero_f32

theorem pt2_lt (t : Fin cfg2.N) : t.val < 50 := lt_of_lt_of_eq t.isLt N_2

abbrev row2 (p : ℕ) (hp : p < 50) (r : Fin 2000) : Fin 100000 := ⟨2000 * p + r.val, by have := r.isLt; omega⟩

theorem idx2_facts : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = t.val ∧ win2_5.index t (1 : Fin 2) = 0
    ∧ win2_6.index t (0 : Fin 2) = 0 ∧ win2_6.index t (1 : Fin 2) = 0
    ∧ win2_7.index t (0 : Fin 2) = 0 ∧ win2_7.index t (1 : Fin 2) = 0 :=
  (by decide +kernel : ∀ t : Fin grid2.N, _)

theorem iblk2_0_apply (c : Dev nD) (t : Fin cfg2.N) (r : Fin 2000) (k : Fin 64) :
    (iblk2 V c 0 t : Vec Ideal S2000x64 .f32) (ix2 r k) = mean2 V c (row2 t.val (pt2_lt t) r) k := by
  show (V c main_v54 : FVec Ideal S100000x64 .f32) (((cfg2.win 0).blk t).view.emb (ix2 r k))
    = (V c main_v54 : FVec Ideal S100000x64 .f32) (ix2 (row2 t.val (pt2_lt t) r) k)
  refine congrArg _ (funext fun a => Fin.ext ?_)
  obtain ⟨e0, e1, -⟩ := idx2_facts t
  match a with
  | ⟨0, _⟩ => show win2_0.index t (0 : Fin 2) * 2000 + 1 * r.val = 2000 * t.val + r.val; omega
  | ⟨1, _⟩ => show win2_0.index t (1 : Fin 2) * 64 + 1 * k.val = k.val; omega

theorem iblk2_1_apply (c : Dev nD) (t : Fin cfg2.N) (r : Fin 2000) (k : Fin 64) :
    (iblk2 V c 1 t : Vec Ideal S2000x64 .f32) (ix2 r k) = feat2 V c (row2 t.val (pt2_lt t) r) k := by
  show (V c main_v41 : FVec Ideal S100000x64 .f32) (((cfg2.win 1).blk t).view.emb (ix2 r k))
    = (V c main_v41 : FVec Ideal S100000x64 .f32) (ix2 (row2 t.val (pt2_lt t) r) k)
  refine congrArg _ (funext fun a => Fin.ext ?_)
  obtain ⟨-, -, e0, e1, -⟩ := idx2_facts t
  match a with
  | ⟨0, _⟩ => show win2_1.index t (0 : Fin 2) * 2000 + 1 * r.val = 2000 * t.val + r.val; omega
  | ⟨1, _⟩ => show win2_1.index t (1 : Fin 2) * 64 + 1 * k.val = k.val; omega

theorem iblk2_2_apply (c : Dev nD) (t : Fin cfg2.N) (k j : Fin 64) :
    (iblk2 V c 2 t : Vec Ideal S64x64 .f32) (ix2 k j) = wl2 V c k j := by
  show (V c main_arg5 : FVec Ideal S64x64 .f32) (((cfg2.win 2).blk t).view.emb (ix2 k j))
    = (V c main_arg5 : FVec Ideal S64x64 .f32) (ix2 k j)
  refine congrArg _ (funext fun a => Fin.ext ?_)
  obtain ⟨-, -, -, -, e0, e1, -⟩ := idx2_facts t
  match a with
  | ⟨0, _⟩ => show win2_2.index t (0 : Fin 2) * 64 + 1 * k.val = k.val; omega
  | ⟨1, _⟩ => show win2_2.index t (1 : Fin 2) * 64 + 1 * j.val = j.val; omega

theorem iblk2_3_apply (c : Dev nD) (t : Fin cfg2.N) (j : Fin 64) :
    (iblk2 V c 3 t : Vec Ideal S1x64 .f32) (ix2 0 j) = bias2 V c j := by
  show (V c main_v55 : FVec Ideal S1x64 .f32) (((cfg2.win 3).blk t).view.emb (ix2 0 j))
    = (V c main_v55 : FVec Ideal S1x64 .f32) (ix2 0 j)
  refine congrArg _ (funext fun a => Fin.ext ?_)
  obtain ⟨-, -, -, -, -, -, e0, e1, -⟩ := idx2_facts t
  match a with
  | ⟨0, _⟩ => show win2_3.index t (0 : Fin 2) * 1 + 1 * 0 = 0; omega
  | ⟨1, _⟩ => show win2_3.index t (1 : Fin 2) * 64 + 1 * j.val = j.val; omega

theorem iblk2_4_apply (c : Dev nD) (t : Fin cfg2.N) (k j : Fin 64) :
    (iblk2 V c 4 t : Vec Ideal S64x64 .f32) (ix2 k j) = wr2 V c k j := by
  show (V c main_arg7 : FVec Ideal S64x64 .f32) (((cfg2.win 4).blk t).view.emb (ix2 k j))
    = (V c main_arg7 : FVec Ideal S64x64 .f32) (ix2 k j)
  refine congrArg _ (funext fun a => Fin.ext ?_)
  obtain ⟨-, -, -, -, -, -, -, -, e0, e1, -⟩ := idx2_facts t
  match a with
  | ⟨0, _⟩ => show win2_4.index t (0 : Fin 2) * 64 + 1 * k.val = k.val; omega
  | ⟨1, _⟩ => show win2_4.index t (1 : Fin 2) * 64 + 1 * j.val = j.val; omega

theorem blk2_lin (c : Dev nD) (t : Fin cfg2.N) (r : Fin 2000) (j : Fin 64) :
    (k2_pay4 (iblk2 V c 0 t) (iblk2 V c 1 t) (iblk2 V c 2 t) (iblk2 V c 4 t) (iblk2 V c 3 t) : Vec Ideal S2000x64 .f32) (ix2 r j)
      = hpre2 V c (row2 t.val (pt2_lt t) r) j := by
  refine (k2_pay4_apply (iblk2 V c 0 t) (iblk2 V c 1 t) (iblk2 V c 2 t) (iblk2 V c 4 t) (iblk2 V c 3 t) r j).trans ?_
  show _ = Cert.Spec.lin (mean2 V c) (feat2 V c) (wl2 V c) (wr2 V c) (bias2 V c) (row2 t.val (pt2_lt t) r) j
  unfold Cert.Spec.lin
  exact congrArg₂ (· + ·)
    (congrArg₂ (· + ·)
      (Finset.sum_congr rfl fun k _ => congrArg₂ (· * ·) (iblk2_0_apply V c t r k) (iblk2_2_apply V c t k j))
      (iblk2_3_apply V c t j))
    (Finset.sum_congr rfl fun k _ => congrArg₂ (· * ·) (iblk2_1_apply V c t r k) (iblk2_4_apply V c t k j))

abbrev hArr2 (c : Dev nD) : FVec Ideal S100000x64 .f32 := fun i => hpre2 V c (i 0) (i 1)

theorem flushed2_5_eq (c : Dev nD) (t : Fin cfg2.N) :
    (dat2 V c).flushed 5 t = ((cfg2.win 5).blk t).view.read (Elt Ideal) (hArr2 V c) := by
  show (cfg2.win 5).cut (grid2.coords t) ((dat2 V c).after 5 t) = _
  rw [after2_5]
  unfold hblk2
  funext y
  obtain ⟨r, j, rfl⟩ : ∃ (r : Fin 2000) (j : Fin 64), y = ix2 r j := ⟨y 0, y 1, eq_ix2 y⟩
  refine (blk2_lin V c t r j).trans ?_
  show hpre2 V c (row2 t.val (pt2_lt t) r) j
    = hpre2 V c ((((cfg2.win 5).blk t).view.emb (ix2 r j)) 0) ((((cfg2.win 5).blk t).view.emb (ix2 r j)) 1)
  obtain ⟨-, -, -, -, -, -, -, -, -, -, e0, e1, -⟩ := idx2_facts t
  refine congrArg₂ (hpre2 V c) (Fin.ext ?_) (Fin.ext ?_)
  · show 2000 * t.val + r.val = win2_5.index t (0 : Fin 2) * 2000 + 1 * r.val; omega
  · show j.val = win2_5.index t (1 : Fin 2) * 64 + 1 * j.val; omega

theorem mem_blk2_5 (t : Fin cfg2.N) (i : S100000x64.Idx) :
    i ∈ ((cfg2.win 5).blk t).view.set ↔ ∀ a : Fin 2, win2_5.index t a * S2000x64.size a ≤ (i a).val ∧ (i a).val < win2_5.index t a * S2000x64.size a + S2000x64.size a := by
  show i ∈ ((View.whole main_v56_0).slice (win2_5.rect t)).set ↔ _
  rw [View.set_slice_whole, Rect.mem_set_unit]
  exact Iff.rfl

theorem cover2_5 (i : S100000x64.Idx) : ∃ t : Fin cfg2.N, (cfg2.win 5).flush t = true ∧ i ∈ ((cfg2.win 5).blk t).view.set := by
  have hi0 : (i 0).val < 100000 := (i 0).isLt
  have hi1 : (i 1).val < 64 := (i 1).isLt
  have hN : cfg2.N = 50 := N_2
  refine ⟨⟨(i 0).val / 2000, by rw [hN]; omega⟩, flush2_5 _, ?_⟩
  rw [mem_blk2_5]
  obtain ⟨-, -, -, -, -, -, -, -, -, -, e0, e1, -⟩ := idx2_facts ⟨(i 0).val / 2000, by rw [hN]; omega⟩
  intro a
  match a with
  | ⟨0, _⟩ =>
    show win2_5.index _ (0 : Fin 2) * 2000 ≤ (i 0).val ∧ (i 0).val < win2_5.index _ (0 : Fin 2) * 2000 + 2000
    rw [e0]; dsimp only; omega
  | ⟨1, _⟩ =>
    show win2_5.index _ (1 : Fin 2) * 64 ≤ (i 1).val ∧ (i 1).val < win2_5.index _ (1 : Fin 2) * 64 + 64
    rw [e1]; omega

theorem final2_5 (c : Dev nD) : (dat2 V c).arrAt 5 cfg2.N = hArr2 V c :=
  (dat2 V c).arrAt_eq_of_cover 5 (hArr2 V c) (fun t _ => flushed2_5_eq V c t) cover2_5

theorem sum_rows2 (g : Fin 100000 → EReal) :
    ∑ i, g i = ∑ p : Fin 50, ∑ r : Fin 2000, g (row2 p.val p.isLt r) := by
  rw [← Fintype.sum_prod_type' (f := fun (p : Fin 50) (r : Fin 2000) => g (row2 p.val p.isLt r))]
  refine (Fintype.sum_equiv (finProdFinEquiv.trans (finCongr (show 50 * 2000 = 100000 from rfl))) _ _ fun x => congrArg g (Fin.ext ?_)).symm
  show 2000 * x.1.val + x.2.val = x.2.val + 2000 * x.1.val
  omega

theorem sumAt2_apply (c : Dev nD) (j : Fin 64) : ∀ (n : ℕ) (h : n < cfg2.N),
    (sumAt2 V c n h : Vec Ideal S1x64 .f32) (ix2 0 j)
      = ∑ p : Fin (n + 1), ∑ r : Fin 2000,
          hpre2 V c (row2 p.val (lt_of_lt_of_le p.isLt (Nat.succ_le_of_lt (lt_of_lt_of_eq h N_2))) r) j
  | 0, h => by
    refine (k2_pay5_apply (iblk2 V c 0 ⟨0, h⟩) (iblk2 V c 1 ⟨0, h⟩) (iblk2 V c 2 ⟨0, h⟩) (iblk2 V c 4 ⟨0, h⟩) (iblk2 V c 3 ⟨0, h⟩)
      (k2_pay2 (F := Ideal)) j).trans ?_
    rw [k2_pay2_apply, zero_add, Fin.sum_univ_one]
    exact Finset.sum_congr rfl fun r _ => blk2_lin V c ⟨0, h⟩ r j
  | n + 1, h => by
    refine (k2_pay5_apply (iblk2 V c 0 ⟨n + 1, h⟩) (iblk2 V c 1 ⟨n + 1, h⟩) (iblk2 V c 2 ⟨n + 1, h⟩) (iblk2 V c 4 ⟨n + 1, h⟩)
      (iblk2 V c 3 ⟨n + 1, h⟩) (sumAt2 V c n (Nat.lt_of_succ_lt h)) j).trans ?_
    refine Eq.trans ?_ (Fin.sum_univ_castSucc _).symm
    exact congrArg₂ (· + ·) (sumAt2_apply c j n (Nat.lt_of_succ_lt h)) (Finset.sum_congr rfl fun r _ => blk2_lin V c ⟨n + 1, h⟩ r j)

theorem sqAt2_apply (c : Dev nD) (j : Fin 64) : ∀ (n : ℕ) (h : n < cfg2.N),
    (sqAt2 V c n h : Vec Ideal S1x64 .f32) (ix2 0 j)
      = ∑ p : Fin (n + 1), ∑ r : Fin 2000,
          hpre2 V c (row2 p.val (lt_of_lt_of_le p.isLt (Nat.succ_le_of_lt (lt_of_lt_of_eq h N_2))) r) j
            * hpre2 V c (row2 p.val (lt_of_lt_of_le p.isLt (Nat.succ_le_of_lt (lt_of_lt_of_eq h N_2))) r) j
  | 0, h => by
    refine (k2_pay1_apply (iblk2 V c 0 ⟨0, h⟩) (iblk2 V c 1 ⟨0, h⟩) (iblk2 V c 2 ⟨0, h⟩) (iblk2 V c 4 ⟨0, h⟩) (iblk2 V c 3 ⟨0, h⟩)
      (k2_pay3 (F := Ideal)) j).trans ?_
    rw [k2_pay3_apply, zero_add, Fin.sum_univ_one]
    exact Finset.sum_congr rfl fun r _ => congrArg₂ (· * ·) (blk2_lin V c ⟨0, h⟩ r j) (blk2_lin V c ⟨0, h⟩ r j)
  | n + 1, h => by
    refine (k2_pay1_apply (iblk2 V c 0 ⟨n + 1, h⟩) (iblk2 V c 1 ⟨n + 1, h⟩) (iblk2 V c 2 ⟨n + 1, h⟩) (iblk2 V c 4 ⟨n + 1, h⟩)
      (iblk2 V c 3 ⟨n + 1, h⟩) (sqAt2 V c n (Nat.lt_of_succ_lt h)) j).trans ?_
    refine Eq.trans ?_ (Fin.sum_univ_castSucc _).symm
    exact congrArg₂ (· + ·) (sqAt2_apply c j n (Nat.lt_of_succ_lt h))
      (Finset.sum_congr rfl fun r _ => congrArg₂ (· * ·) (blk2_lin V c ⟨n + 1, h⟩ r j) (blk2_lin V c ⟨n + 1, h⟩ r j))

theorem last2_lt : 49 < cfg2.N := lt_of_lt_of_eq (by decide) N_2.symm

abbrev sumArr2 (c : Dev nD) : FVec Ideal S1x64 .f32 := sumAt2 V c 49 last2_lt
abbrev sqArr2 (c : Dev nD) : FVec Ideal S1x64 .f32 := sqAt2 V c 49 last2_lt

theorem flushed2_6_eq (c : Dev nD) (t : Fin cfg2.N) (hf : (cfg2.win 6).flush t = true) :
    (dat2 V c).flushed 6 t = ((cfg2.win 6).blk t).view.read (Elt Ideal) (sumArr2 V c) := by
  have hN := pt2_lt t
  have h49 : t.val = 49 := by have := (flush2_6 t).mp hf; omega
  obtain ⟨n, hn⟩ := t
  obtain rfl : n = 49 := h49
  show (cfg2.win 6).cut (grid2.coords ⟨49, hn⟩) ((dat2 V c).after 6 ⟨49, hn⟩) = _
  rw [after2_6]
  funext y
  show sumAt2 V c 49 hn y = sumAt2 V c 49 last2_lt (((cfg2.win 6).blk ⟨49, hn⟩).view.emb y)
  refine congrArg _ (funext fun a => Fin.ext ?_)
  obtain ⟨-, -, -, -, -, -, -, -, -, -, -, -, e0, e1, -⟩ := idx2_facts ⟨49, hn⟩
  match a with
  | ⟨0, _⟩ => show (y 0).val = win2_6.index _ (0 : Fin 2) * 1 + 1 * (y 0).val; omega
  | ⟨1, _⟩ => show (y 1).val = win2_6.index _ (1 : Fin 2) * 64 + 1 * (y 1).val; omega

theorem flushed2_7_eq (c : Dev nD) (t : Fin cfg2.N) (hf : (cfg2.win 7).flush t = true) :
    (dat2 V c).flushed 7 t = ((cfg2.win 7).blk t).view.read (Elt Ideal) (sqArr2 V c) := by
  have hN := pt2_lt t
  have h49 : t.val = 49 := by have := (flush2_7 t).mp hf; omega
  obtain ⟨n, hn⟩ := t
  obtain rfl : n = 49 := h49
  show (cfg2.win 7).cut (grid2.coords ⟨49, hn⟩) ((dat2 V c).after 7 ⟨49, hn⟩) = _
  rw [after2_7]
  funext y
  show sqAt2 V c 49 hn y = sqAt2 V c 49 last2_lt (((cfg2.win 7).blk ⟨49, hn⟩).view.emb y)
  refine congrArg _ (funext fun a => Fin.ext ?_)
  obtain ⟨-, -, -, -, -, -, -, -, -, -, -, -, -, -, e0, e1⟩ := idx2_facts ⟨49, hn⟩
  match a with
  | ⟨0, _⟩ => show (y 0).val = win2_7.index _ (0 : Fin 2) * 1 + 1 * (y 0).val; omega
  | ⟨1, _⟩ => show (y 1).val = win2_7.index _ (1 : Fin 2) * 64 + 1 * (y 1).val; omega

theorem cover2_6 (i : S1x64.Idx) : ∃ t : Fin cfg2.N, (cfg2.win 6).flush t = true ∧ i ∈ ((cfg2.win 6).blk t).view.set := by
  have hi0 : (i 0).val < 1 := (i 0).isLt
  have hi1 : (i 1).val < 64 := (i 1).isLt
  refine ⟨⟨49, last2_lt⟩, (flush2_6 _).mpr rfl, ?_⟩
  show i ∈ ((View.whole main_v56_1).slice (win2_6.rect ⟨49, last2_lt⟩)).set
  rw [View.set_slice_whole, Rect.mem_set_unit]
  obtain ⟨-, -, -, -, -, -, -, -, -, -, -, -, e0, e1, -⟩ := idx2_facts ⟨49, last2_lt⟩
  intro a
  match a with
  | ⟨0, _⟩ =>
    show win2_6.index _ (0 : Fin 2) * 1 ≤ (i 0).val ∧ (i 0).val < win2_6.index _ (0 : Fin 2) * 1 + 1
    rw [e0]; omega
  | ⟨1, _⟩ =>
    show win2_6.index _ (1 : Fin 2) * 64 ≤ (i 1).val ∧ (i 1).val < win2_6.index _ (1 : Fin 2) * 64 + 64
    rw [e1]; omega

theorem cover2_7 (i : S1x64.Idx) : ∃ t : Fin cfg2.N, (cfg2.win 7).flush t = true ∧ i ∈ ((cfg2.win 7).blk t).view.set := by
  have hi0 : (i 0).val < 1 := (i 0).isLt
  have hi1 : (i 1).val < 64 := (i 1).isLt
  refine ⟨⟨49, last2_lt⟩, (flush2_7 _).mpr rfl, ?_⟩
  show i ∈ ((View.whole main_v56_2).slice (win2_7.rect ⟨49, last2_lt⟩)).set
  rw [View.set_slice_whole, Rect.mem_set_unit]
  obtain ⟨-, -, -, -, -, -, -, -, -, -, -, -, -, -, e0, e1⟩ := idx2_facts ⟨49, last2_lt⟩
  intro a
  match a with
  | ⟨0, _⟩ =>
    show win2_7.index _ (0 : Fin 2) * 1 ≤ (i 0).val ∧ (i 0).val < win2_7.index _ (0 : Fin 2) * 1 + 1
    rw [e0]; omega
  | ⟨1, _⟩ =>
    show win2_7.index _ (1 : Fin 2) * 64 ≤ (i 1).val ∧ (i 1).val < win2_7.index _ (1 : Fin 2) * 64 + 64
    rw [e1]; omega

theorem final2_6 (c : Dev nD) : (dat2 V c).arrAt 6 cfg2.N = sumArr2 V c :=
  (dat2 V c).arrAt_eq_of_cover 6 (sumArr2 V c) (flushed2_6_eq V c) cover2_6

theorem final2_7 (c : Dev nD) : (dat2 V c).arrAt 7 cfg2.N = sqArr2 V c :=
  (dat2 V c).arrAt_eq_of_cover 7 (sqArr2 V c) (flushed2_7_eq V c) cover2_7

end K2

open K2

theorem val2_h (c : Dev nD) (i : Fin 100000) (j : Fin 64) :
    ((dat2 V c).arrAt 5 cfg2.N : FVec Ideal S100000x64 .f32) (ix2 i j) = hpre2 V c i j := by
  rw [final2_5]

theorem val2_sum (c : Dev nD) (j : Fin 64) :
    ((dat2 V c).arrAt 6 cfg2.N : FVec Ideal S1x64 .f32) (ix2 0 j) = ∑ i, hpre2 V c i j := by
  rw [final2_6]
  show (sumAt2 V c 49 last2_lt : Vec Ideal S1x64 .f32) (ix2 0 j) = _
  rw [sumAt2_apply V c j 49 last2_lt, sum_rows2 fun i => hpre2 V c i j]

theorem val2_sq (c : Dev nD) (j : Fin 64) :
    ((dat2 V c).arrAt 7 cfg2.N : FVec Ideal S1x64 .f32) (ix2 0 j) = ∑ i, hpre2 V c i j * hpre2 V c i j := by
  rw [final2_7]
  show (sqAt2 V c 49 last2_lt : Vec Ideal S1x64 .f32) (ix2 0 j) = _
  rw [sqAt2_apply V c j 49 last2_lt, sum_rows2 fun i => hpre2 V c i j * hpre2 V c i j]

end Cert.KernelIdeal.Hand

end
-- ==== Proof.Val.K3.lean ====
import proofs.«120156_j16690242912872_1_alg».proof.Proof.KI.R3
import proofs.«120156_j16690242912872_1_alg».proof.Proof.Val.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Idealize.ShloMosaic Idealize.ShloMosaic.TcCoe Idealize.ShloMosaic.ValueIdx
open Idealize.ShloMosaic.Pipeline (Dat Cfg Window)
open Cert.KernelIdeal Cert.KernelIdeal.Gen
open scoped BigOperators

variable (V : (c : Dev nD) → (b : Ref sig .tc) → Buf (Elt Ideal) ((c : Thread nD τ).loc b))

abbrev pre3 (c : Dev nD) : Fin 100000 → Fin 64 → EReal := fun i j => (V c main_v56_0 : FVec Ideal S100000x64 .f32) (ix2 i j)
abbrev scale3 (c : Dev nD) : Fin 64 → EReal := fun j => (V c main_v67 : FVec Ideal S1x64 .f32) (ix2 0 j)
abbrev shift3 (c : Dev nD) : Fin 64 → EReal := fun j => (V c main_v70 : FVec Ideal S1x64 .f32) (ix2 0 j)

namespace K3

theorem ninf_eq_bot : Ideal.ofBits .f32 0xFF800000#32 = (⊥ : EReal) := by simp [Ideal.ofBits, Ideal.ieee]

theorem row_bcast_apply (x : Vec Ideal S1x64 .f32) (h : S1x64.Broadcasts S2000x64) (r : Fin 2000) (j : Fin 64) :
    broadcastTo S2000x64 x h (ix2 r j) = x (ix2 0 j) :=
  broadcastTo_apply x h (ix2 r j) (ix2 0 j) fun a => match a with | ⟨0, _⟩ => rfl | ⟨1, _⟩ => rfl

theorem unit_cast_apply (x : Vec Ideal S64 .f32) (h : S64.ShapeCasts S1x64) (j : Fin 64) :
    shapeCast S1x64 x h (ix2 0 j) = x (ix1 j) :=
  (shapeCast_addUnit_apply ![64] x h (ix2 0 j)).trans (congrArg x (funext fun a => match a with | ⟨0, _⟩ => rfl))

theorem colmax_apply (v : FVec Ideal S2000x64 .f32) (h : S2000x64.Reduces [0] S64) (hφ : FKind.Formats .f32)
    (hacc : (0xFF800000#32 : BitVec 32) = FKind.maximumf.neutral .f32 hφ) (j : Fin 64) :
    multiReduction (F := Ideal) .maximumf [0] S64 v 0xFF800000#32 h hφ hacc (ix1 j)
      = Finset.univ.sup fun r : Fin 2000 => v (ix2 r j) := by
  refine (Ideal.multiReduction_maximumf_single v 0xFF800000#32 h hφ hacc (ix1 j)).trans ?_
  rw [Ideal.ofBits_def, ninf_eq_bot]
  have e : (v ∘ h.lift (ix1 j)) = fun r : Fin 2000 => v (ix2 r j) :=
    funext fun r => congrArg v (Shape.idx_ext₂ rfl rfl)
  show (Finset.univ : Finset (Fin 2000)).fold max ⊥ (v ∘ h.lift (ix1 j)) = _
  rw [e]
  rfl

theorem pay1_apply (x0 : Vec Ideal S2000x64 .f32) (x1 x2 : Vec Ideal S1x64 .f32) (j : Fin 64) :
    k3_pay1 x0 x1 x2 (ix2 0 j)
      = Finset.univ.sup fun r : Fin 2000 => max (x0 (ix2 r j) * x1 (ix2 0 j) + x2 (ix2 0 j)) Cert.Spec.zero := by
  unfold k3_pay1
  dsimp only
  refine (unit_cast_apply _ _ j).trans ?_
  refine (colmax_apply _ _ _ _ j).trans ?_
  refine Finset.sup_congr rfl fun r _ => ?_
  rw [maximumf_apply, addf_apply, mulf_apply, shapeCast_self, row_bcast_apply, shapeCast_self, row_bcast_apply, shapeCast_self,
    broadcast_apply]
  rfl

theorem pay2_apply (x0 : Vec Ideal S2000x64 .f32) (x1 x2 xo : Vec Ideal S1x64 .f32) (j : Fin 64) :
    k3_pay2 x0 x1 x2 xo (ix2 0 j) = max (xo (ix2 0 j)) (k3_pay1 x0 x1 x2 (ix2 0 j)) := by
  unfold k3_pay2
  rw [maximumf_apply, shapeCast_self]

theorem idx_facts3 : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0 :=
  (by decide +kernel : ∀ t : Fin grid3.N, _)

theorem blk0_apply (c : Dev nD) (t : Fin cfg3.N) (r : Fin 2000) (j : Fin 64) (i : Fin 100000) (hi : i.val = t.val * 2000 + r.val) :
    (iblk3 V c 0 t : Vec Ideal S2000x64 .f32) (ix2 r j) = pre3 V c i j := by
  obtain ⟨e0, e1, -⟩ := idx_facts3 t
  unfold iblk3
  rw [View.read_apply]
  show V c main_v56_0 _ = V c main_v56_0 _
  congr 1
  funext a; apply Fin.ext
  match a with
  | ⟨0, _⟩ => show win3_0.index t (0 : Fin 2) * 2000 + 1 * r.val = i.val; omega
  | ⟨1, _⟩ => show win3_0.index t (1 : Fin 2) * 64 + 1 * j.val = j.val; omega

theorem blk1_apply (c : Dev nD) (t : Fin cfg3.N) (j : Fin 64) :
    (iblk3 V c 1 t : Vec Ideal S1x64 .f32) (ix2 0 j) = scale3 V c j := by
  obtain ⟨-, -, e0, e1, -⟩ := idx_facts3 t
  unfold iblk3
  rw [View.read_apply]
  show V c main_v67 _ = V c main_v67 _
  congr 1
  funext a; apply Fin.ext
  match a with
  | ⟨0, _⟩ => show win3_1.index t (0 : Fin 2) * 1 + 1 * 0 = 0; omega
  | ⟨1, _⟩ => show win3_1.index t (1 : Fin 2) * 64 + 1 * j.val = j.val; omega

theorem blk2_apply (c : Dev nD) (t : Fin cfg3.N) (j : Fin 64) :
    (iblk3 V c 2 t : Vec Ideal S1x64 .f32) (ix2 0 j) = shift3 V c j := by
  obtain ⟨-, -, -, -, e0, e1, -⟩ := idx_facts3 t
  unfold iblk3
  rw [View.read_apply]
  show V c main_v70 _ = V c main_v70 _
  congr 1
  funext a; apply Fin.ext
  match a with
  | ⟨0, _⟩ => show win3_2.index t (0 : Fin 2) * 1 + 1 * 0 = 0; omega
  | ⟨1, _⟩ => show win3_2.index t (1 : Fin 2) * 64 + 1 * j.val = j.val; omega

section Sup

variable (g : Fin 100000 → EReal)

def supBelow (n : ℕ) : EReal := (Finset.univ.filter fun i : Fin 100000 => i.val < n * 2000).sup g

def supBlock (n : ℕ) (hn : n < 50) : EReal :=
  Finset.univ.sup fun r : Fin 2000 => g ⟨n * 2000 + r.val, by have := r.isLt; omega⟩

theorem supBelow_zero : supBelow g 0 = ⊥ := by
  unfold supBelow
  rw [Finset.filter_false_of_mem (fun i _ => by omega)]
  exact Finset.sup_empty

theorem le_supBlock (n : ℕ) (hn : n < 50) (r : Fin 2000) :
    g ⟨n * 2000 + r.val, by have := r.isLt; omega⟩ ≤ supBlock g n hn :=
  Finset.le_sup (f := fun r : Fin 2000 => g ⟨n * 2000 + r.val, by have := r.isLt; omega⟩) (Finset.mem_univ r)

/-- The maximum over the first n + 1 blocks is the larger of that over the first n and the block's own. -/
theorem supBelow_succ (n : ℕ) (hn : n < 50) : supBelow g (n + 1) = max (supBelow g n) (supBlock g n hn) := by
  unfold supBelow
  apply le_antisymm
  · refine Finset.sup_le fun i hi => ?_
    have hi' : i.val < (n + 1) * 2000 := (Finset.mem_filter.mp hi).2
    by_cases h : i.val < n * 2000
    · exact le_max_of_le_left (Finset.le_sup (f := g) (Finset.mem_filter.mpr ⟨Finset.mem_univ _, h⟩))
    · refine le_max_of_le_right ?_
      have hr : i.val - n * 2000 < 2000 := by omega
      calc g i = g ⟨n * 2000 + (⟨i.val - n * 2000, hr⟩ : Fin 2000).val, by have := i.isLt; omega⟩ :=
            congrArg g (Fin.ext (by show i.val = n * 2000 + (i.val - n * 2000); omega))
        _ ≤ supBlock g n hn := le_supBlock g n hn ⟨i.val - n * 2000, hr⟩
  · refine max_le (Finset.sup_mono fun i hi => ?_) ?_
    · have hi' : i.val < n * 2000 := (Finset.mem_filter.mp hi).2
      exact Finset.mem_filter.mpr ⟨Finset.mem_univ _, by omega⟩
    · unfold supBlock
      refine Finset.sup_le fun r _ => ?_
      exact Finset.le_sup (f := g) (Finset.mem_filter.mpr ⟨Finset.mem_univ _, by
        show n * 2000 + r.val < (n + 1) * 2000
        have := r.isLt; omega⟩)

theorem supBelow_all : supBelow g 50 = Finset.univ.sup g := by
  unfold supBelow
  rw [Finset.filter_true_of_mem (fun i _ => by have := i.isLt; omega)]

end Sup

abbrev act3 (c : Dev nD) (i : Fin 100000) (j : Fin 64) : EReal :=
  max (pre3 V c i j * scale3 V c j + shift3 V c j) Cert.Spec.zero

theorem pay1_blocks (c : Dev nD) (t : Fin cfg3.N) (j : Fin 64) :
    k3_pay1 (iblk3 V c 0 t) (iblk3 V c 1 t) (iblk3 V c 2 t) (ix2 0 j)
      = supBlock (fun i => act3 V c i j) t.val (lt_of_lt_of_eq t.isLt N_3) := by
  refine (pay1_apply (iblk3 V c 0 t) (iblk3 V c 1 t) (iblk3 V c 2 t) j).trans ?_
  unfold supBlock
  refine Finset.sup_congr rfl fun r _ => ?_
  rw [blk0_apply V c t r j ⟨t.val * 2000 + r.val, by have := r.isLt; have := lt_of_lt_of_eq t.isLt N_3; omega⟩ rfl,
    blk1_apply V c t j, blk2_apply V c t j]

theorem maxAt3_apply (c : Dev nD) (j : Fin 64) : ∀ (n : ℕ) (hn : n < cfg3.N),
    maxAt3 V c n hn (ix2 0 j) = supBelow (fun i => act3 V c i j) (n + 1)
  | 0, hn => by
    rw [supBelow_succ _ 0 (by decide), supBelow_zero, max_bot_left]
    exact (congrFun (maxAt3_first V c ⟨0, hn⟩ rfl) (ix2 0 j)).trans (pay1_blocks V c ⟨0, hn⟩ j)
  | n + 1, hn => by
    have h50 : n + 1 < 50 := lt_of_lt_of_eq hn N_3
    rw [supBelow_succ _ (n + 1) h50, ← maxAt3_apply c j n (Nat.lt_of_succ_lt hn)]
    refine (congrFun (maxAt3_later V c ⟨n + 1, hn⟩ (Nat.succ_ne_zero n)) (ix2 0 j)).trans ?_
    refine (pay2_apply (iblk3 V c 0 ⟨n + 1, hn⟩) (iblk3 V c 1 ⟨n + 1, hn⟩) (iblk3 V c 2 ⟨n + 1, hn⟩)
      (maxAt3 V c n (Nat.lt_of_succ_lt hn)) j).trans ?_
    rw [pay1_blocks V c ⟨n + 1, hn⟩ j]

theorem last_lt3 : 49 < cfg3.N := by rw [show cfg3.N = 50 from N_3]; decide

abbrev result3 (c : Dev nD) : Buf (Elt Ideal) ((c : Thread nD τ).loc main_v71) := maxAt3 V c 49 last_lt3

theorem flushed3_eq (c : Dev nD) (t : Fin cfg3.N) (hf : (cfg3.win 3).flush t = true) :
    (dat3 V c).flushed 3 t = ((cfg3.win 3).blk t).view.read (Elt Ideal) (result3 V c) := by
  have hN : cfg3.N = 50 := N_3
  have h49 : t.val = 49 := by have := (flush3_3 t).mp hf; have := t.isLt; omega
  obtain rfl : t = ⟨49, last_lt3⟩ := Fin.ext h49
  show (cfg3.win 3).cut (grid3.coords ⟨49, last_lt3⟩) ((dat3 V c).after 3 ⟨49, last_lt3⟩) = _
  rw [after3_3]
  obtain ⟨-, -, -, -, -, -, e0, e1⟩ := idx_facts3 ⟨49, last_lt3⟩
  have hz' : (fun a => win3_3.index ⟨49, last_lt3⟩ a * main_v71.ty.shape.size a) = fun _ => 0 :=
    funext fun a => match a with
      | ⟨0, _⟩ => by show win3_3.index ⟨49, last_lt3⟩ (0 : Fin 2) * 1 = 0; omega
      | ⟨1, _⟩ => by show win3_3.index ⟨49, last_lt3⟩ (1 : Fin 2) * 64 = 0; omega
  exact (Memref.read_access_unit_zero (Elt Ideal) main_v71 hz' (fun a => by rw [congrFun hz' a]; simp) (result3 V c)).symm

theorem final3 (c : Dev nD) : (dat3 V c).arrAt 3 cfg3.N = result3 V c :=
  (dat3 V c).arrAt_eq_of_cover 3 (result3 V c) (flushed3_eq V c) fun i =>
    ⟨⟨49, last_lt3⟩, (flush3_3 ⟨49, last_lt3⟩).mpr rfl, by
      obtain ⟨-, -, -, -, -, -, e0, e1⟩ := idx_facts3 ⟨49, last_lt3⟩
      show i ∈ ((View.whole main_v71).slice (win3_3.rect ⟨49, last_lt3⟩)).set
      rw [View.set_slice_whole, Rect.mem_set_unit]
      intro a
      have h0 : (i 0 : Nat) < 1 := (i 0).isLt
      have h1 : (i 1 : Nat) < 64 := (i 1).isLt
      match a with
      | ⟨0, _⟩ =>
        show win3_3.index ⟨49, last_lt3⟩ (0 : Fin 2) * 1 ≤ (i 0 : Nat) ∧ (i 0 : Nat) < win3_3.index ⟨49, last_lt3⟩ (0 : Fin 2) * 1 + 1
        omega
      | ⟨1, _⟩ =>
        show win3_3.index ⟨49, last_lt3⟩ (1 : Fin 2) * 64 ≤ (i 1 : Nat) ∧ (i 1 : Nat) < win3_3.index ⟨49, last_lt3⟩ (1 : Fin 2) * 64 + 64
        omega⟩

end K3

open K3

theorem val3 (c : Dev nD) (j : Fin 64) :
    ((dat3 V c).arrAt 3 cfg3.N : FVec Ideal S1x64 .f32) (ix2 0 j)
      = Cert.Spec.colMax (fun i j => max (pre3 V c i j * scale3 V c j + shift3 V c j) Cert.Spec.zero) j := by
  rw [final3 V c]
  refine (maxAt3_apply V c j 49 last_lt3).trans ?_
  exact supBelow_all _

end Cert.KernelIdeal.Hand

end
-- ==== Proof.Val.Tab.lean ====
import Idealize.ShloMosaic.PureOps.Ideal
import Idealize.ShloMosaic.Lib.ValueIdx

noncomputable section

namespace Cert.Spec

open Idealize.ShloMosaic Idealize.ShloMosaic.ValueIdx

abbrev tb2 (n0 n1 : ℕ) (x : FVec Ideal (⟨2, ![n0, n1]⟩ : Shape) .f32) (i : Fin n0) (j : Fin n1) : EReal := x (ix2 i j)

abbrev tb1 (n : ℕ) (x : FVec Ideal (⟨1, ![n]⟩ : Shape) .f32) (i : Fin n) : EReal := x (ix1 i)

abbrev arr2 (n0 n1 : ℕ) (t : Fin n0 → Fin n1 → EReal) : FVec Ideal (⟨2, ![n0, n1]⟩ : Shape) .f32 := fun ι => t (ι 0) (ι 1)

theorem tb2_arr2 (n0 n1 : ℕ) (t : Fin n0 → Fin n1 → EReal) : tb2 n0 n1 (arr2 n0 n1 t) = t := rfl

theorem arr2_tb2 (n0 n1 : ℕ) (x : FVec Ideal (⟨2, ![n0, n1]⟩ : Shape) .f32) : arr2 n0 n1 (tb2 n0 n1 x) = x := by
  funext ι
  exact congrArg x (eq_ix2 ι).symm

end Cert.Spec

end
-- ==== Proof.Val.Graph.lean ====
import proofs.«120156_j16690242912872_1_alg».proof.Proof.Gen.KernelIdeal
import Idealize.ShloMosaic.PureOps.Ideal

noncomputable section

namespace Cert.KernelIdeal.Hand

open Idealize.ShloMosaic Idealize.ShloMosaic.TcCoe
open Cert.KernelIdeal Cert.KernelIdeal.Gen

/-- An edge's source and destination rows, and a negative row index moved up by the number of nodes. -/
abbrev src (e : IVec S2x1600000 32) : IVec S1600000 32 :=
  shapeCast _ (extractStridedSlice S1x1600000 ![0, 0] e slices_S2x1600000_S1x1600000_0_0) shapeCasts_S1x1600000_S1600000
abbrev dst (e : IVec S2x1600000 32) : IVec S1600000 32 :=
  shapeCast _ (extractStridedSlice S1x1600000 ![1, 0] e slices_S2x1600000_S1x1600000_1_0) shapeCasts_S1x1600000_S1600000
abbrev wrap (s : IVec S1600000 32) : IVec S1600000 32 :=
  select (cmpi .slt s (broadcastInDim S1600000 ![] bcast_S_S1600000 (constantI S_ 32 0#32)))
    (addi s (broadcastInDim S1600000 ![] bcast_S_S1600000 (constantI S_ 32 100000#32))) s

/-- Each node's number of incoming edges. -/
def cntK (e : IVec S2x1600000 32) : FVec Ideal S100000 .f32 :=
  Host.scatterAdd (F := Ideal) scatter_S100000_S1600000x1_S1600000_n_0_0_1
    (broadcastInDim S100000 ![] bcast_S_S100000 (constant (F := Ideal) S_ .f32 0x00000000#32))
    (broadcastInDim S1600000x1 ![0] bcast_S1600000_S1600000x1_0 (dst e))
    (broadcastInDim S1600000 ![] bcast_S_S1600000 (constant (F := Ideal) S_ .f32 0x3F800000#32))

/-- Each node's sum of its incoming edges' source rows, for rows of 2 and of 64 features. -/
def aggK2 (z : FVec Ideal S100000x2 .f32) (e : IVec S2x1600000 32) : FVec Ideal S100000x2 .f32 :=
  Host.scatterAdd (F := Ideal) scatter_S100000x2_S1600000x1_S1600000x2_1_0_0_1
    (broadcastInDim S100000x2 ![] bcast_S_S100000x2 (constant (F := Ideal) S_ .f32 0x00000000#32))
    (broadcastInDim S1600000x1 ![0] bcast_S1600000_S1600000x1_0 (dst e))
    (Host.gather gather_S100000x2_S1600000x1_S1600000x2_1_0_n_n_0_1_12 z
      (broadcastInDim S1600000x1 ![0] bcast_S1600000_S1600000x1_0 (wrap (src e))))

def aggK64 (z : FVec Ideal S100000x64 .f32) (e : IVec S2x1600000 32) : FVec Ideal S100000x64 .f32 :=
  Host.scatterAdd (F := Ideal) scatter_S100000x64_S1600000x1_S1600000x64_1_0_0_1
    (broadcastInDim S100000x64 ![] bcast_S_S100000x64 (constant (F := Ideal) S_ .f32 0x00000000#32))
    (broadcastInDim S1600000x1 ![0] bcast_S1600000_S1600000x1_0 (dst e))
    (Host.gather gather_S100000x64_S1600000x1_S1600000x64_1_0_n_n_0_1_164 z
      (broadcastInDim S1600000x1 ![0] bcast_S1600000_S1600000x1_0 (wrap (src e))))

end Cert.KernelIdeal.Hand

end
-- ==== Proof.Math.Layer.lean ====
import proofs.«120156_j16690242912872_1_alg».proof.Proof.Val.Spec

noncomputable section

namespace Cert.Spec

open Idealize.ShloMosaic
open scoped BigOperators

variable {K H : ℕ}

theorem zero_eq : zero = 0 := by
  simp [Ideal.ofBits, Ideal.ieee]

theorem one_eq : one = 1 := by
  simp [Ideal.ofBits, Ideal.ieee, -EReal.coe_mul]; norm_num

theorem nodes_eq : nodes = ((100000 : ℝ) : EReal) := by
  simp [Ideal.ofBits, Ideal.ieee, -EReal.coe_mul]; norm_num

theorem eps_eq : ∃ e : ℝ, 0 < e ∧ eps = (e : EReal) := by
  simp [Ideal.ofBits, Ideal.ieee, -EReal.coe_mul]

theorem sum_coe {ι : Type} (s : Finset ι) (f : ι → ℝ) :
    (∑ i ∈ s, ((f i : ℝ) : EReal)) = ((∑ i ∈ s, f i : ℝ) : EReal) := by
  classical
  induction s using Finset.induction_on with
  | empty => simp
  | insert a s ha ih => rw [Finset.sum_insert ha, Finset.sum_insert ha, ih, EReal.coe_add]

theorem max_coe (x y : ℝ) : max (x : EReal) (y : EReal) = ((max x y : ℝ) : EReal) := by
  rcases le_total x y with h | h
  · rw [max_eq_right h, max_eq_right (EReal.coe_le_coe_iff.mpr h)]
  · rw [max_eq_left h, max_eq_left (EReal.coe_le_coe_iff.mpr h)]

theorem max_one_ne_zero (c : EReal) : max c one ≠ 0 := by
  rw [one_eq]
  intro h
  have h1 : (1 : EReal) ≤ max c 1 := le_max_right _ _
  rw [h] at h1
  exact absurd h1 (by norm_num)

/-- The mean of squares less the squared mean is the mean of squared deviations. -/
theorem var_identity (x : Fin 100000 → ℝ) :
    (∑ i, x i * x i) * (1 / 100000) - ((∑ i, x i) * (1 / 100000)) * ((∑ i, x i) * (1 / 100000))
      = (∑ i, (x i - (∑ i', x i') * (1 / 100000)) * (x i - (∑ i', x i') * (1 / 100000))) * (1 / 100000) := by
  generalize hS : (∑ i, x i) = S
  generalize hm : S * (1 / 100000) = m
  have h1 : ∑ i, (x i - m) * (x i - m) = (∑ i, x i * x i) - 2 * m * S + 100000 * (m * m) := by
    have e : ∀ i, (x i - m) * (x i - m) = x i * x i - 2 * m * x i + m * m := fun i => by ring
    simp only [e]
    rw [Finset.sum_add_distrib, Finset.sum_sub_distrib, ← Finset.mul_sum, hS, Finset.sum_const, Finset.card_univ,
      Fintype.card_fin, nsmul_eq_mul, Nat.cast_ofNat]
  rw [h1, ← hm]; ring

theorem stats_real (h : Fin 100000 → Fin H → EReal) (hh : AllReal₂ h) (j : Fin H) :
    ∃ m ρ : ℝ, colMean h j = (m : EReal)
      ∧ Ideal.rsqrt (Ideal.div (∑ i', h i' j * h i' j) nodes - colMean h j * colMean h j + eps) = (ρ : EReal)
      ∧ Ideal.rsqrt (Ideal.div (∑ i', (h i' j - colMean h j) * (h i' j - colMean h j)) nodes + eps) = (ρ : EReal) := by
  choose hr hhr using hh
  obtain ⟨e, he, hee⟩ := eps_eq
  have hn : (100000 : ℝ) ≠ 0 := by norm_num
  have hm : colMean h j = (((∑ i, hr i j) * (1 / 100000) : ℝ) : EReal) := by
    unfold colMean
    simp only [hhr, sum_coe]
    rw [nodes_eq, Ideal.div_coe hn, ← EReal.coe_mul]
  generalize hmdef : (∑ i, hr i j) * (1 / 100000) = m at hm
  have hvR : Ideal.div (∑ i', (h i' j - colMean h j) * (h i' j - colMean h j)) nodes + eps
      = (((∑ i, (hr i j - m) * (hr i j - m)) * (1 / 100000) + e : ℝ) : EReal) := by
    rw [hm, hee, nodes_eq, Ideal.div_coe hn]
    simp only [hhr, ← EReal.coe_sub, ← EReal.coe_mul, sum_coe, ← EReal.coe_add]
  have hvK : Ideal.div (∑ i', h i' j * h i' j) nodes - colMean h j * colMean h j + eps
      = (((∑ i, (hr i j - m) * (hr i j - m)) * (1 / 100000) + e : ℝ) : EReal) := by
    rw [hm, hee, nodes_eq, Ideal.div_coe hn]
    simp only [hhr, ← EReal.coe_sub, ← EReal.coe_mul, sum_coe, ← EReal.coe_add]
    have := var_identity (fun i => hr i j)
    simp only [hmdef] at this
    rw [this]
  have hpos : 0 < (∑ i, (hr i j - m) * (hr i j - m)) * (1 / 100000) + e := by
    have : 0 ≤ ∑ i, (hr i j - m) * (hr i j - m) := Finset.sum_nonneg fun i _ => mul_self_nonneg _
    exact add_pos_of_nonneg_of_pos (mul_nonneg this (by norm_num)) he
  refine ⟨m, (Real.sqrt ((∑ i, (hr i j - m) * (hr i j - m)) * (1 / 100000) + e))⁻¹, hm, ?_, ?_⟩
  · rw [hvK, Ideal.rsqrt_coe, if_neg (not_lt.mpr hpos.le), if_neg hpos.ne']
  · rw [hvR, Ideal.rsqrt_coe, if_neg (not_lt.mpr hpos.le), if_neg hpos.ne']

/-- A product with the reciprocal of a number at least one is the quotient by it, on all extended reals. -/
theorem mean_eq {N : ℕ} (A : Fin N → Fin K → EReal) (cnt : Fin N → EReal) : kMean A cnt = rMean A cnt := by
  funext i k
  unfold kMean rMean Ideal.div
  rw [if_neg (max_one_ne_zero _), if_neg (max_one_ne_zero _), one_eq, one_mul]

theorem rMean_real {N : ℕ} (A : Fin N → Fin K → EReal) (cnt : Fin N → EReal) (hA : AllReal₂ A) (hcnt : AllReal cnt) :
    AllReal₂ (rMean A cnt) := by
  intro i k
  obtain ⟨a, ha⟩ := hA i k
  obtain ⟨c, hc⟩ := hcnt i
  have hne : max c 1 ≠ 0 := ne_of_gt (lt_of_lt_of_le one_pos (le_max_right c 1))
  refine ⟨a * (1 / max c 1), ?_⟩
  unfold rMean
  rw [ha, hc, one_eq, ← EReal.coe_one, max_coe, Ideal.div_coe hne, EReal.coe_mul]

theorem lin_real {N : ℕ} (mean z : Fin N → Fin K → EReal) (Wl Wr : Fin K → Fin H → EReal) (b : Fin H → EReal)
    (hmean : AllReal₂ mean) (hz : AllReal₂ z) (hWl : AllReal₂ Wl) (hWr : AllReal₂ Wr) (hb : AllReal b) :
    AllReal₂ (lin mean z Wl Wr b) := by
  choose mr hmr using hmean
  choose zr hzr using hz
  choose lr hlr using hWl
  choose rr hrr using hWr
  choose br hbr using hb
  intro i j
  refine ⟨(∑ k, mr i k * lr k j) + br j + ∑ k, zr i k * rr k j, ?_⟩
  unfold lin
  simp only [hmr, hzr, hlr, hrr, hbr, ← EReal.coe_mul, sum_coe, ← EReal.coe_add]

/-- On reals, `h · s + (β − μ · s)` with `s = γ · r` is `(h − μ) · r · γ + β`, and the two variances agree by `var_identity`. -/
theorem norm_eq (h : Fin 100000 → Fin H → EReal) (g be : Fin H → EReal) (hh : AllReal₂ h) (hg : AllReal g) (hbe : AllReal be) :
    kNorm h g be = rNorm h g be := by
  funext i j
  obtain ⟨m, ρ, hm, hk, hr⟩ := stats_real h hh j
  obtain ⟨x, hx⟩ := hh i j
  obtain ⟨γ, hγ⟩ := hg j
  obtain ⟨β, hβ⟩ := hbe j
  unfold kNorm rNorm
  rw [hk, hr, hm, hx, hγ, hβ]
  simp only [← EReal.coe_sub, ← EReal.coe_mul, ← EReal.coe_add]
  congr 2
  ring

theorem rNorm_real (h : Fin 100000 → Fin H → EReal) (g be : Fin H → EReal) (hh : AllReal₂ h) (hg : AllReal g) (hbe : AllReal be) :
    AllReal₂ (rNorm h g be) := by
  intro i j
  obtain ⟨m, ρ, hm, _, hr⟩ := stats_real h hh j
  obtain ⟨x, hx⟩ := hh i j
  obtain ⟨γ, hγ⟩ := hg j
  obtain ⟨β, hβ⟩ := hbe j
  refine ⟨max ((x - m) * ρ * γ + β) 0, ?_⟩
  unfold rNorm
  rw [hr, hm, hx, hγ, hβ, zero_eq, ← EReal.coe_zero]
  simp only [← EReal.coe_sub, ← EReal.coe_mul, ← EReal.coe_add, max_coe]

end Cert.Spec

end
-- ==== Proof.Math.Agg.lean ====
import proofs.«120156_j16690242912872_1_alg».proof.Proof.Val.Spec
import proofs.«120156_j16690242912872_1_alg».proof.Proof.Math.Layer
import Idealize.ShloMosaic.PureOps.Ideal
import Idealize.ShloMosaic.PureOps.Contract
import Idealize.ShloMosaic.PureOps.ShapeOps

noncomputable section

namespace Cert.Spec

open Idealize.ShloMosaic
open scoped BigOperators

theorem gather_real {s si t : Shape} {w : Nat} (d : GatherDims s si t) (x : FVec Ideal s .f32) (idx : IVec si w)
    (hx : AllReal x) : AllReal (Host.gather d x idx) := by
  intro j
  exact hx (d.operandIdx j idx)

theorem scatterAdd_real {s si u : Shape} {w : Nat} (d : ScatterDims s si u) (x : FVec Ideal s .f32) (idx : IVec si w)
    (upd : FVec Ideal u .f32) (hx : AllReal x) (hu : AllReal upd) : AllReal (Host.scatterAdd d x idx upd) := by
  choose xr hxr using hx
  choose ur hur using hu
  intro i
  show ∃ r : ℝ, Ideal.hostScatterAdd d x idx upd i = (r : EReal)
  unfold Ideal.hostScatterAdd
  simp only [hxr, hur, sum_coe, ← EReal.coe_add]
  exact ⟨_, rfl⟩

theorem ofBits_zero_real : ∃ r : ℝ, Ideal.ofBits .f32 0x00000000#32 = (r : EReal) := by
  exact ⟨0, zero_eq⟩

theorem ofBits_one_real : ∃ r : ℝ, Ideal.ofBits .f32 0x3F800000#32 = (r : EReal) := by
  exact ⟨1, one_eq⟩

theorem const_real {ι : Type} (x : ι → EReal) (v : EReal) (hv : ∃ r : ℝ, v = (r : EReal)) (hx : ∀ i, x i = v) : AllReal x := by
  intro i
  obtain ⟨r, hr⟩ := hv
  exact ⟨r, (hx i).trans hr⟩

end Cert.Spec

end
-- ==== Proof.Val.HostA.lean ====
import proofs.«120156_j16690242912872_1_alg».proof.Proof.KI.Run
import proofs.«120156_j16690242912872_1_alg».proof.Proof.Val.Spec
import proofs.«120156_j16690242912872_1_alg».proof.Proof.Val.Tab
import proofs.«120156_j16690242912872_1_alg».proof.Proof.Val.Graph
import proofs.«120156_j16690242912872_1_alg».proof.Proof.Math.Agg
import Idealize.ShloMosaic.Lib.Pipeline.Value
import Idealize.ShloMosaic.Lib.StableHlo.Run
import Idealize.ShloMosaic.Lib.ValueIdx
import Idealize.ShloMosaic.Lib.ValueLayout
import Idealize.ShloMosaic.PureOps.Ideal.Laws

set_option maxRecDepth 16384

noncomputable section

namespace Cert.KernelIdeal.Hand

open Idealize.ShloMosaic Idealize.ShloMosaic.TcCoe Idealize.ShloMosaic.ValueIdx
open Idealize.ShloMosaic.Pipeline (Dat Cfg Window)
open Cert.KernelIdeal Cert.KernelIdeal.Gen
open scoped BigOperators

open Cert.Spec (tb1 tb2 arr2)

variable (m : (ℓ : Loc nD τ sig) → Buf (Elt Ideal) ℓ) (c : Dev nD)

namespace HostA

theorem hdivf_apply {s : Shape} {φ : FTy} (a b : FVec Ideal s φ) (i : s.Idx) : Host.divf a b i = Ideal.div (a i) (b i) := rfl

theorem ones_apply (j : S100000.Idx) :
    broadcastInDim S100000 ![] bcast_S_S100000 (constant (F := Ideal) S_ .f32 0x3F800000#32) j = Cert.Spec.one :=
  (broadcastInDim_apply _ bcast_S_S100000 _ j ix0 (fun a => a.elim0)).trans (constant_apply _ _)

theorem inv_apply (x : FVec Ideal S100000 .f32) (i : Fin 100000) :
    Host.divf (broadcastInDim S100000 ![] bcast_S_S100000 (constant (F := Ideal) S_ .f32 0x3F800000#32))
      (maximumf x (broadcastInDim S100000 ![] bcast_S_S100000 (constant (F := Ideal) S_ .f32 0x3F800000#32))) (ix1 i)
    = Ideal.div Cert.Spec.one (max (x (ix1 i)) Cert.Spec.one) := by
  rw [hdivf_apply, maximumf_apply, ones_apply]

theorem inv_of (a x : FVec Ideal S100000 .f32)
    (h : a = Host.divf (broadcastInDim S100000 ![] bcast_S_S100000 (constant (F := Ideal) S_ .f32 0x3F800000#32))
      (maximumf x (broadcastInDim S100000 ![] bcast_S_S100000 (constant (F := Ideal) S_ .f32 0x3F800000#32))))
    (i : Fin 100000) :
    tb1 100000 a i = Ideal.div Cert.Spec.one (max (tb1 100000 x i) Cert.Spec.one) := by
  subst h; exact inv_apply x i

theorem bcol_apply (k : ℕ) (h : S100000x1.BroadcastsInDim (⟨2, ![100000, k]⟩ : Shape) ![0, 1]) (v : FVec Ideal S100000 .f32)
    (i : Fin 100000) (q : Fin k) :
    broadcastInDim (⟨2, ![100000, k]⟩ : Shape) ![0, 1] h
        (broadcastInDim S100000x1 ![0] bcast_S100000_S100000x1_0 v) (ix2 i q) = v (ix1 i) :=
  (broadcastInDim_apply _ h _ (ix2 i q) (ix2 i (0 : Fin 1)) (fun a => match a with
      | ⟨0, _⟩ => by show i.val = if (100000 : ℕ) = 1 then 0 else i.val; rw [if_neg (by decide)]
      | ⟨1, _⟩ => by show 0 = if (1 : ℕ) = 1 then 0 else q.val; rw [if_pos rfl])).trans
    (broadcastInDim_apply _ bcast_S100000_S100000x1_0 v (ix2 i (0 : Fin 1)) (ix1 i) (fun a => match a with
      | ⟨0, _⟩ => by show i.val = if (100000 : ℕ) = 1 then 0 else i.val; rw [if_neg (by decide)]))

theorem mean_of (k : ℕ) (h : S100000x1.BroadcastsInDim (⟨2, ![100000, k]⟩ : Shape) ![0, 1])
    (a A : FVec Ideal (⟨2, ![100000, k]⟩ : Shape) .f32) (v : FVec Ideal S100000 .f32)
    (ha : a = mulf A (broadcastInDim (⟨2, ![100000, k]⟩ : Shape) ![0, 1] h
        (broadcastInDim S100000x1 ![0] bcast_S100000_S100000x1_0 v)))
    (i : Fin 100000) (q : Fin k) :
    tb2 100000 k a i q = tb2 100000 k A i q * tb1 100000 v i := by
  subst ha
  show mulf A _ (ix2 i q) = A (ix2 i q) * v (ix1 i)
  rw [mulf_apply, bcol_apply]

theorem bias_of (a : FVec Ideal S1x64 .f32) (b : FVec Ideal S64 .f32) (h : a = shapeCast S1x64 b shapeCasts_S64_S1x64)
    (j : Fin 64) : tb2 1 64 a 0 j = tb1 64 b j := by
  subst h; exact shapeCast_a_1a_apply b shapeCasts_S64_S1x64 0 j

theorem splat_apply {t : Shape} (h : S_.BroadcastsInDim t ![]) (w : BitVec 32) (j : t.Idx) :
    broadcastInDim t ![] h (constant (F := Ideal) S_ .f32 w) j = Ideal.ofBits .f32 w :=
  (broadcastInDim_apply _ h _ j ix0 (fun a => a.elim0)).trans (constant_apply _ _)

set_option maxHeartbeats 4000000 in

theorem w1_v11 : @Eq (FVec Ideal S100000 .f32) (W1 m c main_v11)
    (Host.divf (broadcastInDim S100000 ![] bcast_S_S100000 (constant (F := Ideal) S_ .f32 0x3F800000#32))
      (maximumf (W1 m c main_v7 : FVec Ideal S100000 .f32)
        (broadcastInDim S100000 ![] bcast_S_S100000 (constant (F := Ideal) S_ .f32 0x3F800000#32)))) := by
  dsimp only [W1]
  after_results_simp

set_option maxHeartbeats 4000000 in

theorem w1_v24 : @Eq (FVec Ideal S100000x2 .f32) (W1 m c main_v24)
    (mulf (W1 m c main_v21 : FVec Ideal S100000x2 .f32)
      (broadcastInDim S100000x2 ![0, 1] bcast_S100000x1_S100000x2_0_1
        (broadcastInDim S100000x1 ![0] bcast_S100000_S100000x1_0 (W1 m c main_v11 : FVec Ideal S100000 .f32)))) := by
  dsimp only [W1]
  after_results_simp

set_option maxHeartbeats 4000000 in

theorem w1_v25 : @Eq (FVec Ideal S1x64 .f32) (W1 m c main_v25)
    (shapeCast S1x64 (W0 m c main_arg3 : FVec Ideal S64 .f32) shapeCasts_S64_S1x64) := by
  dsimp only [W1]
  after_results_simp
  rfl

set_option maxHeartbeats 4000000 in

theorem w5_v54 : @Eq (FVec Ideal S100000x64 .f32) (W5 m c main_v54)
    (mulf (W5 m c main_v51 : FVec Ideal S100000x64 .f32)
      (broadcastInDim S100000x64 ![0, 1] bcast_S100000x1_S100000x64_0_1
        (broadcastInDim S100000x1 ![0] bcast_S100000_S100000x1_0 (W4 m c main_v11 : FVec Ideal S100000 .f32)))) := by
  dsimp only [W5]
  after_results_simp

set_option maxHeartbeats 4000000 in

theorem w5_v55 : @Eq (FVec Ideal S1x64 .f32) (W5 m c main_v55)
    (shapeCast S1x64 (W4 m c main_arg6 : FVec Ideal S64 .f32) shapeCasts_S64_S1x64) := by
  dsimp only [W5]
  after_results_simp
  rfl

set_option maxHeartbeats 4000000 in

theorem w1_v1 : @Eq (IVec S1600000 32) (W1 m c main_v1) (src (W0 m c main_arg1)) := by
  dsimp only [W1]
  after_results_simp
  rfl

set_option maxHeartbeats 4000000 in

theorem w1_v3 : @Eq (IVec S1600000 32) (W1 m c main_v3) (dst (W0 m c main_arg1)) := by
  dsimp only [W1]
  after_results_simp
  rfl

theorem w4_v1 : @Eq (IVec S1600000 32) (W4 m c main_v1) (src (W0 m c main_arg1)) :=
  (W4_keep m c main_v1 (by decide)).trans <|
  (StableHlo.after_of_writes_sub hostOps1 _ hostOps1_writes (by decide)).trans <|
  (W2_keep m c main_v1 (by decide)).trans (w1_v1 m c)

theorem w4_v3 : @Eq (IVec S1600000 32) (W4 m c main_v3) (dst (W0 m c main_arg1)) :=
  (W4_keep m c main_v3 (by decide)).trans <|
  (StableHlo.after_of_writes_sub hostOps1 _ hostOps1_writes (by decide)).trans <|
  (W2_keep m c main_v3 (by decide)).trans (w1_v3 m c)

set_option maxHeartbeats 4000000 in

theorem w5_v51 : @Eq (FVec Ideal S100000x64 .f32) (W5 m c main_v51)
    (Host.scatterAdd (F := Ideal) scatter_S100000x64_S1600000x1_S1600000x64_1_0_0_1
      (broadcastInDim S100000x64 ![] bcast_S_S100000x64 (constant (F := Ideal) S_ .f32 0x00000000#32))
      (broadcastInDim S1600000x1 ![0] bcast_S1600000_S1600000x1_0 (W4 m c main_v3 : IVec S1600000 32))
      (Host.gather gather_S100000x64_S1600000x1_S1600000x64_1_0_n_n_0_1_164 (W4 m c main_v41 : FVec Ideal S100000x64 .f32)
        (broadcastInDim S1600000x1 ![0] bcast_S1600000_S1600000x1_0
          (wrap (W4 m c main_v1))))) := by
  dsimp only [W5]
  after_results_simp

end HostA

open HostA

theorem host0_mean (i : Fin 100000) (q : Fin 2) :
    tb2 100000 2 (W1 m c main_v24) i q
      = tb2 100000 2 (W1 m c main_v21) i q * Ideal.div Cert.Spec.one (max (tb1 100000 (W1 m c main_v7) i) Cert.Spec.one) :=
  (mean_of 2 bcast_S100000x1_S100000x2_0_1 (W1 m c main_v24) (W1 m c main_v21) (W1 m c main_v11) (w1_v24 m c) i q).trans
    (congrArg (fun t : EReal => tb2 100000 2 (W1 m c main_v21) i q * t)
      (inv_of (W1 m c main_v11) (W1 m c main_v7) (w1_v11 m c) i))

theorem host0_inv (i : Fin 100000) :
    tb1 100000 (W1 m c main_v11) i = Ideal.div Cert.Spec.one (max (tb1 100000 (W1 m c main_v7) i) Cert.Spec.one) :=
  inv_of (W1 m c main_v11) (W1 m c main_v7) (w1_v11 m c) i

theorem host0_bias (j : Fin 64) : tb2 1 64 (W1 m c main_v25) 0 j = tb1 64 (W0 m c main_arg3) j :=
  bias_of (W1 m c main_v25) (W0 m c main_arg3) (w1_v25 m c) j

theorem host2_mean (i : Fin 100000) (q : Fin 64) :
    tb2 100000 64 (W5 m c main_v54) i q = tb2 100000 64 (W5 m c main_v51) i q * tb1 100000 (W4 m c main_v11) i :=
  mean_of 64 bcast_S100000x1_S100000x64_0_1 (W5 m c main_v54) (W5 m c main_v51) (W4 m c main_v11) (w5_v54 m c) i q

theorem host2_bias (j : Fin 64) : tb2 1 64 (W5 m c main_v55) 0 j = tb1 64 (W4 m c main_arg6) j :=
  bias_of (W5 m c main_v55) (W4 m c main_arg6) (w5_v55 m c) j

namespace HostA

theorem agg64_of (a z : FVec Ideal S100000x64 .f32) (s d : IVec S1600000 32) (e : IVec S2x1600000 32)
    (ha : a = Host.scatterAdd (F := Ideal) scatter_S100000x64_S1600000x1_S1600000x64_1_0_0_1
      (broadcastInDim S100000x64 ![] bcast_S_S100000x64 (constant (F := Ideal) S_ .f32 0x00000000#32))
      (broadcastInDim S1600000x1 ![0] bcast_S1600000_S1600000x1_0 d)
      (Host.gather gather_S100000x64_S1600000x1_S1600000x64_1_0_n_n_0_1_164 z
        (broadcastInDim S1600000x1 ![0] bcast_S1600000_S1600000x1_0
          (wrap s))))
    (hs : s = src e) (hd : d = dst e) :
    a = aggK64 z e := by
  subst hs hd ha
  rfl

end HostA

open HostA

set_option maxHeartbeats 4000000 in
theorem host0_cnt : (W1 m c main_v7 : FVec Ideal S100000 .f32) = cntK (W0 m c main_arg1) := by
  dsimp only [W1]
  after_results_simp
  rfl

set_option maxHeartbeats 4000000 in
theorem host0_agg : (W1 m c main_v21 : FVec Ideal S100000x2 .f32) = aggK2 (W0 m c main_arg0) (W0 m c main_arg1) := by
  dsimp only [W1]
  after_results_simp
  rfl

theorem host2_agg : (W5 m c main_v51 : FVec Ideal S100000x64 .f32) = aggK64 (W4 m c main_v41) (W0 m c main_arg1) :=
  agg64_of (W5 m c main_v51) (W4 m c main_v41) (W4 m c main_v1) (W4 m c main_v3) (W0 m c main_arg1)
    (w5_v51 m c) (w4_v1 m c) (w4_v3 m c)

theorem cntK_real (e : IVec S2x1600000 32) : Cert.Spec.AllReal (cntK e) := by
  unfold cntK
  exact Cert.Spec.scatterAdd_real _ _ _ _
    (Cert.Spec.const_real _ _ Cert.Spec.ofBits_zero_real (fun j => splat_apply bcast_S_S100000 _ j))
    (Cert.Spec.const_real _ _ Cert.Spec.ofBits_one_real (fun j => splat_apply bcast_S_S1600000 _ j))

theorem aggK2_real (z : FVec Ideal S100000x2 .f32) (e : IVec S2x1600000 32) (hz : Cert.Spec.AllReal z) : Cert.Spec.AllReal (aggK2 z e) := by
  unfold aggK2
  exact Cert.Spec.scatterAdd_real _ _ _ _
    (Cert.Spec.const_real _ _ Cert.Spec.ofBits_zero_real (fun j => splat_apply bcast_S_S100000x2 _ j))
    (Cert.Spec.gather_real _ _ _ hz)

theorem aggK64_real (z : FVec Ideal S100000x64 .f32) (e : IVec S2x1600000 32) (hz : Cert.Spec.AllReal z) : Cert.Spec.AllReal (aggK64 z e) := by
  unfold aggK64
  exact Cert.Spec.scatterAdd_real _ _ _ _
    (Cert.Spec.const_real _ _ Cert.Spec.ofBits_zero_real (fun j => splat_apply bcast_S_S100000x64 _ j))
    (Cert.Spec.gather_real _ _ _ hz)

end Cert.KernelIdeal.Hand

end
-- ==== Proof.Val.HostB.lean ====
import proofs.«120156_j16690242912872_1_alg».proof.Proof.KI.Run
import proofs.«120156_j16690242912872_1_alg».proof.Proof.Val.Spec
import proofs.«120156_j16690242912872_1_alg».proof.Proof.Val.Tab
import Idealize.ShloMosaic.Lib.Pipeline.Value
import Idealize.ShloMosaic.Lib.StableHlo.Run
import Idealize.ShloMosaic.Lib.ValueIdx
import Idealize.ShloMosaic.Lib.ValueLayout
import Idealize.ShloMosaic.PureOps.Ideal.Laws

set_option maxRecDepth 16384

noncomputable section

namespace Cert.KernelIdeal.Hand

open Idealize.ShloMosaic Idealize.ShloMosaic.TcCoe Idealize.ShloMosaic.ValueIdx
open Idealize.ShloMosaic.Pipeline (Dat Cfg Window)
open Cert.KernelIdeal Cert.KernelIdeal.Gen
open scoped BigOperators

open Cert.Spec (tb1 tb2 arr2)

variable (m : (ℓ : Loc nD τ sig) → Buf (Elt Ideal) ℓ) (c : Dev nD)

namespace HostB

theorem splat_row_apply (w : BitVec 32) (i : S1x64.Idx) :
    broadcastInDim S1x64 ![] bcast_S_S1x64 (constant (F := Ideal) S_ .f32 w) i = Ideal.ofBits .f32 w :=
  broadcastInDim_apply _ bcast_S_S1x64 _ i (fun a => a.elim0) (fun a => a.elim0)

theorem hostDivf_row_apply (a b : FVec Ideal S1x64 .f32) (i : S1x64.Idx) : Host.divf a b i = Ideal.div (a i) (b i) := rfl

theorem hostRsqrt_row_apply (a : FVec Ideal S1x64 .f32) (i : S1x64.Idx) : Host.rsqrt a i = Ideal.rsqrt (a i) := rfl

theorem row_of_vec_apply (x : FVec Ideal S64 .f32) (j : Fin 64) :
    shapeCast S1x64 x shapeCasts_S64_S1x64 (ix2 0 j) = x (ix1 j) :=
  shapeCast_a_1a_apply x _ 0 j

theorem vec_of_row_apply (x : FVec Ideal S1x64 .f32) (j : Fin 64) :
    shapeCast S64 x shapeCasts_S1x64_S64 (ix1 j) = x (ix2 0 j) :=
  shapeCast_1a_a_apply x _ j

end HostB

open HostB

theorem host1_scale (j : Fin 64) :
    tb2 1 64 (W3 m c main_v37) 0 j
      = tb1 64 (W2 m c main_arg8) j
          * Ideal.rsqrt (Ideal.div (tb2 1 64 (W2 m c main_v26_2) 0 j) Cert.Spec.nodes
              - Ideal.div (tb2 1 64 (W2 m c main_v26_1) 0 j) Cert.Spec.nodes * Ideal.div (tb2 1 64 (W2 m c main_v26_1) 0 j) Cert.Spec.nodes
              + Cert.Spec.eps) := by
  show (StableHlo.after hostOps1 (W2 m c) (Proc.devRef .tc main_v37) : FVec Ideal S1x64 .f32) (ix2 0 j) = _
  after_results_simp
  rw [mulf_apply, hostRsqrt_row_apply, addf_apply, subf_apply, mulf_apply, hostDivf_row_apply, hostDivf_row_apply,
    splat_row_apply, splat_row_apply]
  exact congrArg (fun z : EReal => z * _) (row_of_vec_apply (W2 m c main_arg8) j)

theorem host1_shift (j : Fin 64) :
    tb2 1 64 (W3 m c main_v40) 0 j
      = tb1 64 (W2 m c main_arg9) j - Ideal.div (tb2 1 64 (W2 m c main_v26_1) 0 j) Cert.Spec.nodes * tb2 1 64 (W3 m c main_v37) 0 j := by
  show (StableHlo.after hostOps1 (W2 m c) (Proc.devRef .tc main_v40) : FVec Ideal S1x64 .f32) (ix2 0 j)
      = tb1 64 (W2 m c main_arg9) j - Ideal.div (tb2 1 64 (W2 m c main_v26_1) 0 j) Cert.Spec.nodes
          * (StableHlo.after hostOps1 (W2 m c) (Proc.devRef .tc main_v37) : FVec Ideal S1x64 .f32) (ix2 0 j)
  after_results_simp
  rw [subf_apply, mulf_apply, hostDivf_row_apply, splat_row_apply]
  exact congrArg (fun z : EReal => z - _) (row_of_vec_apply (W2 m c main_arg9) j)

theorem host3_scale (j : Fin 64) :
    tb2 1 64 (W7 m c main_v67) 0 j
      = tb1 64 (W6 m c main_arg10) j
          * Ideal.rsqrt (Ideal.div (tb2 1 64 (W6 m c main_v56_2) 0 j) Cert.Spec.nodes
              - Ideal.div (tb2 1 64 (W6 m c main_v56_1) 0 j) Cert.Spec.nodes * Ideal.div (tb2 1 64 (W6 m c main_v56_1) 0 j) Cert.Spec.nodes
              + Cert.Spec.eps) := by
  show (StableHlo.after hostOps3 (W6 m c) (Proc.devRef .tc main_v67) : FVec Ideal S1x64 .f32) (ix2 0 j) = _
  after_results_simp
  rw [mulf_apply, hostRsqrt_row_apply, addf_apply, subf_apply, mulf_apply, hostDivf_row_apply, hostDivf_row_apply,
    splat_row_apply, splat_row_apply]
  exact congrArg (fun z : EReal => z * _) (row_of_vec_apply (W6 m c main_arg10) j)

theorem host3_shift (j : Fin 64) :
    tb2 1 64 (W7 m c main_v70) 0 j
      = tb1 64 (W6 m c main_arg11) j - Ideal.div (tb2 1 64 (W6 m c main_v56_1) 0 j) Cert.Spec.nodes * tb2 1 64 (W7 m c main_v67) 0 j := by
  show (StableHlo.after hostOps3 (W6 m c) (Proc.devRef .tc main_v70) : FVec Ideal S1x64 .f32) (ix2 0 j)
      = tb1 64 (W6 m c main_arg11) j - Ideal.div (tb2 1 64 (W6 m c main_v56_1) 0 j) Cert.Spec.nodes
          * (StableHlo.after hostOps3 (W6 m c) (Proc.devRef .tc main_v67) : FVec Ideal S1x64 .f32) (ix2 0 j)
  after_results_simp
  rw [subf_apply, mulf_apply, hostDivf_row_apply, splat_row_apply]
  exact congrArg (fun z : EReal => z - _) (row_of_vec_apply (W6 m c main_arg11) j)

theorem host4_out (j : Fin 64) : tb1 64 (W9 m c main_v72) j = tb2 1 64 (W8 m c main_v71) 0 j := by
  show (StableHlo.after hostOps4 (W8 m c) (Proc.devRef .tc main_v72) : FVec Ideal S64 .f32) (ix1 j) = _
  after_results_simp
  exact vec_of_row_apply (W8 m c main_v71) j

end Cert.KernelIdeal.Hand

end
-- ==== Proof.Val.Ker.lean ====
import proofs.«120156_j16690242912872_1_alg».proof.Proof.KI.Run
import proofs.«120156_j16690242912872_1_alg».proof.Proof.Val.K0
import proofs.«120156_j16690242912872_1_alg».proof.Proof.Val.K1
import proofs.«120156_j16690242912872_1_alg».proof.Proof.Val.K2
import proofs.«120156_j16690242912872_1_alg».proof.Proof.Val.K3
import proofs.«120156_j16690242912872_1_alg».proof.Proof.Val.HostA
import proofs.«120156_j16690242912872_1_alg».proof.Proof.Val.HostB
import proofs.«120156_j16690242912872_1_alg».proof.Proof.Val.Spec
import proofs.«120156_j16690242912872_1_alg».proof.Proof.Val.Tab
import Idealize.ShloMosaic.Lib.Pipeline.Value
import Idealize.ShloMosaic.Lib.ValueIdx

set_option maxRecDepth 16384

noncomputable section

namespace Cert.KernelIdeal.Hand

open Idealize.ShloMosaic Idealize.ShloMosaic.TcCoe Idealize.ShloMosaic.ValueIdx Idealize.SL.Sem
open Idealize.ShloMosaic.Pipeline (Dat Cfg Window)
open Cert.KernelIdeal Cert.KernelIdeal.Gen
open Cert.Spec (tb1 tb2 arr2)
open scoped BigOperators

variable (m : (ℓ : Loc nD τ sig) → Buf (Elt Ideal) ℓ) (c : Dev nD)

abbrev cntT : Fin 100000 → EReal := tb1 100000 (cntK (W0 m c main_arg1))

def hpre1K : Fin 100000 → Fin 64 → EReal :=
  Cert.Spec.lin (Cert.Spec.kMean (tb2 100000 2 (aggK2 (W0 m c main_arg0) (W0 m c main_arg1))) (cntT m c))
    (tb2 100000 2 (W0 m c main_arg0)) (tb2 2 64 (W0 m c main_arg2)) (tb2 2 64 (W0 m c main_arg4)) (tb1 64 (W0 m c main_arg3))

def h1K : Fin 100000 → Fin 64 → EReal :=
  Cert.Spec.kNorm (hpre1K m c) (tb1 64 (W0 m c main_arg8)) (tb1 64 (W0 m c main_arg9))

def hpre2K : Fin 100000 → Fin 64 → EReal :=
  Cert.Spec.lin (Cert.Spec.kMean (tb2 100000 64 (aggK64 (arr2 100000 64 (h1K m c)) (W0 m c main_arg1))) (cntT m c))
    (h1K m c) (tb2 64 64 (W0 m c main_arg5)) (tb2 64 64 (W0 m c main_arg7)) (tb1 64 (W0 m c main_arg6))

theorem c1 (r : Ref sig .tc) (h : r ∉ hostOps0_W) : W1 m c (Proc.devRef .tc r) = W0 m c (Proc.devRef .tc r) :=
  StableHlo.after_of_writes_sub hostOps0 _ hostOps0_writes h
theorem c3 (r : Ref sig .tc) (h : r ∉ hostOps1_W) : W3 m c (Proc.devRef .tc r) = W2 m c (Proc.devRef .tc r) :=
  StableHlo.after_of_writes_sub hostOps1 _ hostOps1_writes h
theorem c5 (r : Ref sig .tc) (h : r ∉ hostOps2_W) : W5 m c (Proc.devRef .tc r) = W4 m c (Proc.devRef .tc r) :=
  StableHlo.after_of_writes_sub hostOps2 _ hostOps2_writes h
theorem c7 (r : Ref sig .tc) (h : r ∉ hostOps3_W) : W7 m c (Proc.devRef .tc r) = W6 m c (Proc.devRef .tc r) :=
  StableHlo.after_of_writes_sub hostOps3 _ hostOps3_writes h

theorem a2 (r : Ref sig .tc) (k0 : ∀ w : Fin cfg0.W, (cfg0.win w).isOut = true → Pipeline.arrRef spec0 w ≠ r) :
    W2 m c (Proc.devRef .tc r) = W1 m c (Proc.devRef .tc r) := W2_keep m c r k0
theorem a4 (r : Ref sig .tc) (h1 : r ∉ hostOps1_W)
    (k0 : ∀ w : Fin cfg0.W, (cfg0.win w).isOut = true → Pipeline.arrRef spec0 w ≠ r)
    (k1 : ∀ w : Fin cfg1.W, (cfg1.win w).isOut = true → Pipeline.arrRef spec1 w ≠ r) :
    W4 m c (Proc.devRef .tc r) = W1 m c (Proc.devRef .tc r) :=
  (W4_keep m c r k1).trans ((c3 m c r h1).trans (a2 m c r k0))
theorem a6 (r : Ref sig .tc) (h1 : r ∉ hostOps1_W) (h2 : r ∉ hostOps2_W)
    (k0 : ∀ w : Fin cfg0.W, (cfg0.win w).isOut = true → Pipeline.arrRef spec0 w ≠ r)
    (k1 : ∀ w : Fin cfg1.W, (cfg1.win w).isOut = true → Pipeline.arrRef spec1 w ≠ r)
    (k2 : ∀ w : Fin cfg2.W, (cfg2.win w).isOut = true → Pipeline.arrRef spec2 w ≠ r) :
    W6 m c (Proc.devRef .tc r) = W1 m c (Proc.devRef .tc r) :=
  (W6_keep m c r k2).trans ((c5 m c r h2).trans (a4 m c r h1 k0 k1))

theorem mean0_eq : mean0 (U1 m) c
    = Cert.Spec.kMean (tb2 100000 2 (aggK2 (W0 m c main_arg0) (W0 m c main_arg1))) (cntT m c) := by
  funext i q
  show tb2 100000 2 (W1 m c main_v24) i q = _
  rw [host0_mean m c i q]
  unfold Cert.Spec.kMean
  rw [show tb2 100000 2 (W1 m c main_v21) i q = tb2 100000 2 (aggK2 (W0 m c main_arg0) (W0 m c main_arg1)) i q from
        congrArg (fun x => tb2 100000 2 x i q) (host0_agg m c),
      show tb1 100000 (W1 m c main_v7) i = tb1 100000 (cntK (W0 m c main_arg1)) i from
        congrArg (fun x => tb1 100000 x i) (host0_cnt m c)]

theorem feat0_eq : feat0 (U1 m) c = tb2 100000 2 (W0 m c main_arg0) := by
  funext i q
  exact congrArg (fun x => tb2 100000 2 x i q) (c1 m c main_arg0 (by decide))

theorem wl0_eq : wl0 (U1 m) c = tb2 2 64 (W0 m c main_arg2) := by
  funext q j
  exact congrArg (fun x => tb2 2 64 x q j) (c1 m c main_arg2 (by decide))

theorem wr0_eq : wr0 (U1 m) c = tb2 2 64 (W0 m c main_arg4) := by
  funext q j
  exact congrArg (fun x => tb2 2 64 x q j) (c1 m c main_arg4 (by decide))

theorem bias0_eq : bias0 (U1 m) c = tb1 64 (W0 m c main_arg3) := by
  funext j
  exact host0_bias m c j

theorem hpre0_eq : hpre0 (U1 m) c = hpre1K m c := by
  unfold hpre1K
  show Cert.Spec.lin (mean0 (U1 m) c) (feat0 (U1 m) c) (wl0 (U1 m) c) (wr0 (U1 m) c) (bias0 (U1 m) c) = _
  rw [mean0_eq m c, feat0_eq m c, wl0_eq m c, wr0_eq m c, bias0_eq m c]

theorem v26_0_eq (i : Fin 100000) (j : Fin 64) : tb2 100000 64 (W2 m c main_v26_0) i j = hpre1K m c i j := by
  have h := val0_h (U1 m) c i j
  rw [hpre0_eq m c] at h
  exact (congrArg (fun x => tb2 100000 64 x i j) (W2_arr m c 5)).trans h

theorem v26_1_eq (j : Fin 64) : tb2 1 64 (W2 m c main_v26_1) 0 j = ∑ i, hpre1K m c i j := by
  have h := val0_sum (U1 m) c j
  rw [hpre0_eq m c] at h
  exact (congrArg (fun x => tb2 1 64 x 0 j) (W2_arr m c 6)).trans h

theorem v26_2_eq (j : Fin 64) : tb2 1 64 (W2 m c main_v26_2) 0 j = ∑ i, hpre1K m c i j * hpre1K m c i j := by
  have h := val0_sq (U1 m) c j
  rw [hpre0_eq m c] at h
  exact (congrArg (fun x => tb2 1 64 x 0 j) (W2_arr m c 7)).trans h

theorem scale1_eq (j : Fin 64) : scale1 (U3 m) c j
    = tb1 64 (W0 m c main_arg8) j
        * Ideal.rsqrt (Ideal.div (∑ i, hpre1K m c i j * hpre1K m c i j) Cert.Spec.nodes
            - Cert.Spec.colMean (hpre1K m c) j * Cert.Spec.colMean (hpre1K m c) j + Cert.Spec.eps) := by
  show tb2 1 64 (W3 m c main_v37) 0 j = _
  rw [host1_scale m c j, v26_1_eq m c j, v26_2_eq m c j]
  unfold Cert.Spec.colMean
  rw [show tb1 64 (W2 m c main_arg8) j = tb1 64 (W0 m c main_arg8) j from
        congrArg (fun x => tb1 64 x j) ((a2 m c main_arg8 (by decide)).trans (c1 m c main_arg8 (by decide)))]

theorem shift1_eq (j : Fin 64) : shift1 (U3 m) c j
    = tb1 64 (W0 m c main_arg9) j - Cert.Spec.colMean (hpre1K m c) j * scale1 (U3 m) c j := by
  show tb2 1 64 (W3 m c main_v40) 0 j = _
  rw [host1_shift m c j, v26_1_eq m c j]
  unfold Cert.Spec.colMean
  rw [show tb1 64 (W2 m c main_arg9) j = tb1 64 (W0 m c main_arg9) j from
        congrArg (fun x => tb1 64 x j) ((a2 m c main_arg9 (by decide)).trans (c1 m c main_arg9 (by decide)))]

theorem pre1_eq (i : Fin 100000) (j : Fin 64) : pre1 (U3 m) c i j = hpre1K m c i j := by
  show tb2 100000 64 (W3 m c main_v26_0) i j = _
  rw [show tb2 100000 64 (W3 m c main_v26_0) i j = tb2 100000 64 (W2 m c main_v26_0) i j from
        congrArg (fun x => tb2 100000 64 x i j) (c3 m c main_v26_0 (by decide))]
  exact v26_0_eq m c i j

theorem v41_eq (i : Fin 100000) (j : Fin 64) : tb2 100000 64 (W4 m c main_v41) i j = h1K m c i j := by
  have h := val1 (U3 m) c i j
  rw [pre1_eq m c i j, shift1_eq m c j, scale1_eq m c j] at h
  exact (congrArg (fun x => tb2 100000 64 x i j) (W4_arr m c 3)).trans h

theorem v41_arr : (W4 m c main_v41 : FVec Ideal S100000x64 .f32) = arr2 100000 64 (h1K m c) := by
  rw [← Cert.Spec.arr2_tb2 100000 64 (W4 m c main_v41)]
  exact congrArg (arr2 100000 64) (funext fun i => funext fun j => v41_eq m c i j)

theorem inv_eq (i : Fin 100000) :
    tb1 100000 (W4 m c main_v11) i = Ideal.div Cert.Spec.one (max (cntT m c i) Cert.Spec.one) := by
  refine (congrArg (fun x => tb1 100000 x i) (a4 m c main_v11 (by decide) (by decide) (by decide))).trans ?_
  refine (host0_inv m c i).trans ?_
  rw [show tb1 100000 (W1 m c main_v7) i = cntT m c i from congrArg (fun x => tb1 100000 x i) (host0_cnt m c)]

theorem mean2_eq : mean2 (U5 m) c
    = Cert.Spec.kMean (tb2 100000 64 (aggK64 (arr2 100000 64 (h1K m c)) (W0 m c main_arg1))) (cntT m c) := by
  funext i q
  show tb2 100000 64 (W5 m c main_v54) i q = _
  rw [host2_mean m c i q, inv_eq m c i]
  unfold Cert.Spec.kMean
  rw [show tb2 100000 64 (W5 m c main_v51) i q
        = tb2 100000 64 (aggK64 (arr2 100000 64 (h1K m c)) (W0 m c main_arg1)) i q from
        congrArg (fun x => tb2 100000 64 x i q)
          ((host2_agg m c).trans (congrArg (fun z => aggK64 z (W0 m c main_arg1)) (v41_arr m c)))]

theorem feat2_eq : feat2 (U5 m) c = h1K m c := by
  funext i q
  exact (congrArg (fun x => tb2 100000 64 x i q) (c5 m c main_v41 (by decide))).trans (v41_eq m c i q)

theorem wl2_eq : wl2 (U5 m) c = tb2 64 64 (W0 m c main_arg5) := by
  funext q j
  exact congrArg (fun x => tb2 64 64 x q j)
    ((c5 m c main_arg5 (by decide)).trans ((a4 m c main_arg5 (by decide) (by decide) (by decide)).trans (c1 m c main_arg5 (by decide))))

theorem wr2_eq : wr2 (U5 m) c = tb2 64 64 (W0 m c main_arg7) := by
  funext q j
  exact congrArg (fun x => tb2 64 64 x q j)
    ((c5 m c main_arg7 (by decide)).trans ((a4 m c main_arg7 (by decide) (by decide) (by decide)).trans (c1 m c main_arg7 (by decide))))

theorem bias2_eq : bias2 (U5 m) c = tb1 64 (W0 m c main_arg6) := by
  funext j
  refine (host2_bias m c j).trans ?_
  exact congrArg (fun x => tb1 64 x j)
    ((a4 m c main_arg6 (by decide) (by decide) (by decide)).trans (c1 m c main_arg6 (by decide)))

theorem hpre2_eq : hpre2 (U5 m) c = hpre2K m c := by
  unfold hpre2K
  show Cert.Spec.lin (mean2 (U5 m) c) (feat2 (U5 m) c) (wl2 (U5 m) c) (wr2 (U5 m) c) (bias2 (U5 m) c) = _
  rw [mean2_eq m c, feat2_eq m c, wl2_eq m c, wr2_eq m c, bias2_eq m c]

theorem v56_0_eq (i : Fin 100000) (j : Fin 64) : tb2 100000 64 (W6 m c main_v56_0) i j = hpre2K m c i j := by
  have h := val2_h (U5 m) c i j
  rw [hpre2_eq m c] at h
  exact (congrArg (fun x => tb2 100000 64 x i j) (W6_arr m c 5)).trans h

theorem v56_1_eq (j : Fin 64) : tb2 1 64 (W6 m c main_v56_1) 0 j = ∑ i, hpre2K m c i j := by
  have h := val2_sum (U5 m) c j
  rw [hpre2_eq m c] at h
  exact (congrArg (fun x => tb2 1 64 x 0 j) (W6_arr m c 6)).trans h

theorem v56_2_eq (j : Fin 64) : tb2 1 64 (W6 m c main_v56_2) 0 j = ∑ i, hpre2K m c i j * hpre2K m c i j := by
  have h := val2_sq (U5 m) c j
  rw [hpre2_eq m c] at h
  exact (congrArg (fun x => tb2 1 64 x 0 j) (W6_arr m c 7)).trans h

theorem scale3_eq (j : Fin 64) : scale3 (U7 m) c j
    = tb1 64 (W0 m c main_arg10) j
        * Ideal.rsqrt (Ideal.div (∑ i, hpre2K m c i j * hpre2K m c i j) Cert.Spec.nodes
            - Cert.Spec.colMean (hpre2K m c) j * Cert.Spec.colMean (hpre2K m c) j + Cert.Spec.eps) := by
  show tb2 1 64 (W7 m c main_v67) 0 j = _
  rw [host3_scale m c j, v56_1_eq m c j, v56_2_eq m c j]
  unfold Cert.Spec.colMean
  rw [show tb1 64 (W6 m c main_arg10) j = tb1 64 (W0 m c main_arg10) j from
        congrArg (fun x => tb1 64 x j)
          ((a6 m c main_arg10 (by decide) (by decide) (by decide) (by decide) (by decide)).trans (c1 m c main_arg10 (by decide)))]

theorem shift3_eq (j : Fin 64) : shift3 (U7 m) c j
    = tb1 64 (W0 m c main_arg11) j - Cert.Spec.colMean (hpre2K m c) j * scale3 (U7 m) c j := by
  show tb2 1 64 (W7 m c main_v70) 0 j = _
  rw [host3_shift m c j, v56_1_eq m c j]
  unfold Cert.Spec.colMean
  rw [show tb1 64 (W6 m c main_arg11) j = tb1 64 (W0 m c main_arg11) j from
        congrArg (fun x => tb1 64 x j)
          ((a6 m c main_arg11 (by decide) (by decide) (by decide) (by decide) (by decide)).trans (c1 m c main_arg11 (by decide)))]

theorem pre3_eq (i : Fin 100000) (j : Fin 64) : pre3 (U7 m) c i j = hpre2K m c i j := by
  show tb2 100000 64 (W7 m c main_v56_0) i j = _
  rw [show tb2 100000 64 (W7 m c main_v56_0) i j = tb2 100000 64 (W6 m c main_v56_0) i j from
        congrArg (fun x => tb2 100000 64 x i j) (c7 m c main_v56_0 (by decide))]
  exact v56_0_eq m c i j

/-- The kernel program's result is each column's maximum of layer 2's activations. -/
theorem ker_value (j : Fin 64) :
    tb1 64 (W9 m c main_v72) j
      = Cert.Spec.colMax (Cert.Spec.kNorm (hpre2K m c) (tb1 64 (W0 m c main_arg10)) (tb1 64 (W0 m c main_arg11))) j := by
  rw [host4_out m c j]
  have h := val3 (U7 m) c j
  have e : (fun i j => max (pre3 (U7 m) c i j * scale3 (U7 m) c j + shift3 (U7 m) c j) Cert.Spec.zero)
      = Cert.Spec.kNorm (hpre2K m c) (tb1 64 (W0 m c main_arg10)) (tb1 64 (W0 m c main_arg11)) := by
    funext i j
    rw [pre3_eq m c i j, shift3_eq m c j, scale3_eq m c j]
    rfl
  rw [e] at h
  exact (congrArg (fun x => tb2 1 64 x 0 j) (W8_arr m c 3)).trans h

end Cert.KernelIdeal.Hand

end
-- ==== Proof.Val.RefMax.lean ====
import proofs.«120156_j16690242912872_1_alg».proof.Proof.Gen.ReferenceIdeal.Read
import proofs.«120156_j16690242912872_1_alg».proof.Proof.Val.Spec
import proofs.«120156_j16690242912872_1_alg».proof.Proof.Val.Tab
import Idealize.ShloMosaic.Lib.ValueIdx
import Idealize.ShloMosaic.PureOps.Ideal.Laws

set_option maxRecDepth 16384

noncomputable section

namespace Cert.ReferenceIdeal.RefVal

open Idealize.ShloMosaic Idealize.ShloMosaic.TcCoe Idealize.ShloMosaic.ValueIdx
open Cert.ReferenceIdeal Cert.ReferenceIdeal.Gen
open Cert.Spec (tb1 tb2 arr2)

namespace RefMax

theorem ninf_eq_bot : Ideal.ofBits .f32 0xFF800000#32 = (⊥ : EReal) := by simp [Ideal.ofBits, Ideal.ieee]

theorem reduces_nodes : S100000x64.Reduces [0] S64 := by decide

end RefMax

open RefMax

theorem hostMax_apply (x : FVec Ideal S100000x64 .f32) (j : Fin 64) :
    tb1 64 (Host.reduce FloatOps.maximumf x (constant (F := Ideal) S_ .f32 0xFF800000#32) reducesTo_S100000x64_S64_d0 h_S_) j
      = Cert.Spec.colMax (tb2 100000 64 x) j := by
  show Host.reduce FloatOps.maximumf x (constant (F := Ideal) S_ .f32 0xFF800000#32) reducesTo_S100000x64_S64_d0 h_S_ (ix1 j) = _
  refine (Host.reduce_eq_fold_single (FloatOps.maximumf (F := Ideal) (φ := .f32)) x (constant (F := Ideal) S_ .f32 0xFF800000#32)
    reducesTo_S100000x64_S64_d0 reduces_nodes h_S_ (ix1 j)).trans ?_
  rw [constant_apply, ninf_eq_bot]
  have e : (x ∘ reduces_nodes.lift (ix1 j)) = fun i : Fin 100000 => x (ix2 i j) :=
    funext fun i => congrArg x (Shape.idx_ext₂ rfl rfl)
  show (Finset.univ : Finset (Fin 100000)).fold max ⊥ (x ∘ reduces_nodes.lift (ix1 j)) = _
  rw [e]
  rfl

end Cert.ReferenceIdeal.RefVal

end
-- ==== Proof.Val.Ref.lean ====
import proofs.«120156_j16690242912872_1_alg».proof.Proof.Gen.ReferenceIdeal.Read
import proofs.«120156_j16690242912872_1_alg».proof.Proof.Val.Spec
import proofs.«120156_j16690242912872_1_alg».proof.Proof.Val.Tab
import proofs.«120156_j16690242912872_1_alg».proof.Proof.Val.RefMax
import proofs.«120156_j16690242912872_1_alg».proof.Proof.Val.Graph
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.ReferenceIdeal.RefVal

open Idealize.ShloMosaic Idealize.ShloMosaic.TcCoe Idealize.ShloMosaic.ValueIdx Idealize.SL.Sem
open Cert.ReferenceIdeal Cert.ReferenceIdeal.Gen
open Cert.Spec (tb1 tb2 arr2)
open Cert.KernelIdeal.Hand (cntK aggK2 aggK64)
open scoped BigOperators

namespace Ref

open Cert.ReferenceIdeal.Read

section Layer1

variable (x0 : FVec Ideal S100000x2 .f32) (e : IVec S2x1600000 32) (x2 x4 : FVec Ideal S2x64 .f32) (x3 x8 x9 : FVec Ideal S64 .f32)

theorem agg1_eq : val_main_v13 (F := Ideal) x0 e = aggK2 x0 e := rfl
theorem cnt1_eq : val_main_v17 (F := Ideal) e = cntK e := rfl

theorem mean1 (i : Fin 100000) (q : Fin 2) :
    val_main_v22 (F := Ideal) x0 e (ix2 i q)
      = Cert.Spec.rMean (tb2 100000 2 (aggK2 x0 e)) (tb1 100000 (cntK e)) i q := by
  have e1 : idx_main_v20 (idx_main_v21 (ix2 i q)) = ix1 i :=
    funext fun a => Fin.ext (by match a with | ⟨0, _⟩ => rfl)
  rw [val_main_v22_apply, val_main_v21_apply, val_main_v20_apply, val_main_v19_apply, val_main_v18_apply,
    val_main_cst_3_apply, e1]
  rfl

theorem lin1 (i : Fin 100000) (j : Fin 64) :
    val_main_v28 (F := Ideal) x0 e x2 x3 x4 (ix2 i j)
      = Cert.Spec.lin (Cert.Spec.rMean (tb2 100000 2 (aggK2 x0 e)) (tb1 100000 (cntK e)))
          (tb2 100000 2 x0) (tb2 2 64 x2) (tb2 2 64 x4) (tb1 64 x3) i j := by
  have el : ∀ k : Fin 2, lidx_main_v23 (ix2 i j) k = ix2 i k := fun k => Shape.idx_ext₂ rfl rfl
  have er : ∀ k : Fin 2, ridx_main_v23 (ix2 i j) k = ix2 k j := fun k => Shape.idx_ext₂ rfl rfl
  have el' : ∀ k : Fin 2, lidx_main_v27 (ix2 i j) k = ix2 i k := fun k => Shape.idx_ext₂ rfl rfl
  have er' : ∀ k : Fin 2, ridx_main_v27 (ix2 i j) k = ix2 k j := fun k => Shape.idx_ext₂ rfl rfl
  have eb : idx_main_v24 (idx_main_v25 (ix2 i j)) = ix1 j :=
    funext fun a => Fin.ext (by match a with | ⟨0, _⟩ => rfl)
  rw [val_main_v28_apply, val_main_v26_apply, val_main_v23_apply, val_main_v25_apply, val_main_v24_apply,
    val_main_v27_apply, eb]
  refine congrArg₂ (· + ·) (congrArg₂ (· + ·) (Finset.sum_congr rfl fun k _ => ?_) rfl) (Finset.sum_congr rfl fun k _ => ?_)
  · rw [el k, er k, mean1]
  · rw [el' k, er' k]

abbrev H1 : Fin 100000 → Fin 64 → EReal := fun i j => val_main_v28 (F := Ideal) x0 e x2 x3 x4 (ix2 i j)

theorem cmean1 (j : Fin 64) :
    val_main_v31 (F := Ideal) x0 e x2 x3 x4 (ix1 j) = Cert.Spec.colMean (H1 x0 e x2 x4 x3) j := by
  have es : ∀ k : Fin 100000, idx_main_v29 (ix1 j) k = ix2 k j := fun k => Shape.idx_ext₂ rfl rfl
  rw [val_main_v31_apply, val_main_v29_apply, val_main_v30_apply, val_main_cst_4_apply, val_main_cst_5_apply]
  simp only [es, Ideal.ofBits_def, Ideal.ofBits_zero_f32, zero_add, Ideal.hostDivf_def]
  rfl

theorem var1 (j : Fin 64) :
    val_main_v38 (F := Ideal) x0 e x2 x3 x4 (ix1 j)
      = Ideal.div (∑ i' : Fin 100000, (H1 x0 e x2 x4 x3 i' j - Cert.Spec.colMean (H1 x0 e x2 x4 x3) j)
          * (H1 x0 e x2 x4 x3 i' j - Cert.Spec.colMean (H1 x0 e x2 x4 x3) j)) Cert.Spec.nodes := by
  have es : ∀ k : Fin 100000, idx_main_v36 (ix1 j) k = ix2 k j := fun k => Shape.idx_ext₂ rfl rfl
  have em : ∀ k : Fin 100000, idx_main_v32 (idx_main_v33 (ix2 k j)) = ix1 j := fun k =>
    funext fun a => Fin.ext (by match a with | ⟨0, _⟩ => rfl)
  rw [val_main_v38_apply, val_main_v36_apply, val_main_v37_apply, val_main_cst_6_apply, val_main_cst_7_apply]
  have hs : ∀ k : Fin 100000, val_main_v35 (F := Ideal) x0 e x2 x3 x4 (idx_main_v36 (ix1 j) k)
      = (H1 x0 e x2 x4 x3 k j - Cert.Spec.colMean (H1 x0 e x2 x4 x3) j)
          * (H1 x0 e x2 x4 x3 k j - Cert.Spec.colMean (H1 x0 e x2 x4 x3) j) := fun k => by
    rw [es k, val_main_v35_apply, val_main_v34_apply, val_main_v33_apply, val_main_v32_apply, em k, cmean1]
    rfl
  simp only [hs, Ideal.ofBits_def, Ideal.ofBits_zero_f32, zero_add, Ideal.hostDivf_def]

theorem norm1 (i : Fin 100000) (j : Fin 64) :
    val_main_v54 (F := Ideal) x0 e x2 x3 x4 x8 x9 (ix2 i j)
      = Cert.Spec.rNorm (H1 x0 e x2 x4 x3) (tb1 64 x8) (tb1 64 x9) i j := by
  have em : idx_main_v39 (idx_main_v40 (ix2 i j)) = ix1 j :=
    funext fun a => Fin.ext (by match a with | ⟨0, _⟩ => rfl)
  have er : idx_main_v45 (idx_main_v46 (ix2 i j)) = ix1 j :=
    funext fun a => Fin.ext (by match a with | ⟨0, _⟩ => rfl)
  have eg : idx_main_v48 (idx_main_v49 (ix2 i j)) = ix1 j :=
    funext fun a => Fin.ext (by match a with | ⟨0, _⟩ => rfl)
  have eb : idx_main_v51 (idx_main_v52 (ix2 i j)) = ix1 j :=
    funext fun a => Fin.ext (by match a with | ⟨0, _⟩ => rfl)
  rw [val_main_v54_apply, val_main_call0_v0_apply, val_main_call0_cst_apply, val_main_v53_apply, val_main_v50_apply,
    val_main_v52_apply, val_main_v51_apply, val_main_v47_apply, val_main_v49_apply, val_main_v48_apply,
    val_main_v41_apply, val_main_v40_apply, val_main_v39_apply, val_main_v46_apply, val_main_v45_apply,
    val_main_v44_apply, val_main_v43_apply, val_main_v42_apply, val_main_cst_8_apply, em, er, eg, eb, cmean1, var1]
  rfl

theorem H1_eq : H1 x0 e x2 x4 x3
    = Cert.Spec.lin (Cert.Spec.rMean (tb2 100000 2 (aggK2 x0 e)) (tb1 100000 (cntK e)))
        (tb2 100000 2 x0) (tb2 2 64 x2) (tb2 2 64 x4) (tb1 64 x3) :=
  funext fun i => funext fun j => lin1 x0 e x2 x4 x3 i j

theorem act1_arr : val_main_v54 (F := Ideal) x0 e x2 x3 x4 x8 x9
    = arr2 100000 64 (Cert.Spec.rNorm (H1 x0 e x2 x4 x3) (tb1 64 x8) (tb1 64 x9)) :=
  funext fun ι => (congrArg (val_main_v54 (F := Ideal) x0 e x2 x3 x4 x8 x9) (eq_ix2 ι)).trans
    (norm1 x0 e x2 x4 x3 x8 x9 (ι 0) (ι 1))

end Layer1

section Layer2

variable (x0 : FVec Ideal S100000x2 .f32) (e : IVec S2x1600000 32) (x2 x4 : FVec Ideal S2x64 .f32) (x3 x8 x9 : FVec Ideal S64 .f32)
  (x5 x7 : FVec Ideal S64x64 .f32) (x6 x10 x11 : FVec Ideal S64 .f32)

abbrev Z1 : FVec Ideal S100000x64 .f32 := val_main_v54 (F := Ideal) x0 e x2 x3 x4 x8 x9

theorem agg2_eq : val_main_v64 (F := Ideal) x0 e x2 x3 x4 x8 x9 = aggK64 (Z1 x0 e x2 x4 x3 x8 x9) e := rfl
theorem cnt2_eq : val_main_v68 (F := Ideal) e = cntK e := rfl

theorem mean2 (i : Fin 100000) (q : Fin 64) :
    val_main_v73 (F := Ideal) x0 e x2 x3 x4 x8 x9 (ix2 i q)
      = Cert.Spec.rMean (tb2 100000 64 (aggK64 (Z1 x0 e x2 x4 x3 x8 x9) e)) (tb1 100000 (cntK e)) i q := by
  have e1 : idx_main_v71 (idx_main_v72 (ix2 i q)) = ix1 i :=
    funext fun a => Fin.ext (by match a with | ⟨0, _⟩ => rfl)
  rw [val_main_v73_apply, val_main_v72_apply, val_main_v71_apply, val_main_v70_apply, val_main_v69_apply,
    val_main_cst_14_apply, e1]
  rfl

theorem lin2 (i : Fin 100000) (j : Fin 64) :
    val_main_v79 (F := Ideal) x0 e x2 x3 x4 x5 x6 x7 x8 x9 (ix2 i j)
      = Cert.Spec.lin (Cert.Spec.rMean (tb2 100000 64 (aggK64 (Z1 x0 e x2 x4 x3 x8 x9) e)) (tb1 100000 (cntK e)))
          (tb2 100000 64 (Z1 x0 e x2 x4 x3 x8 x9)) (tb2 64 64 x5) (tb2 64 64 x7) (tb1 64 x6) i j := by
  have el : ∀ k : Fin 64, lidx_main_v74 (ix2 i j) k = ix2 i k := fun k => Shape.idx_ext₂ rfl rfl
  have er : ∀ k : Fin 64, ridx_main_v74 (ix2 i j) k = ix2 k j := fun k => Shape.idx_ext₂ rfl rfl
  have el' : ∀ k : Fin 64, lidx_main_v78 (ix2 i j) k = ix2 i k := fun k => Shape.idx_ext₂ rfl rfl
  have er' : ∀ k : Fin 64, ridx_main_v78 (ix2 i j) k = ix2 k j := fun k => Shape.idx_ext₂ rfl rfl
  have eb : idx_main_v75 (idx_main_v76 (ix2 i j)) = ix1 j :=
    funext fun a => Fin.ext (by match a with | ⟨0, _⟩ => rfl)
  rw [val_main_v79_apply, val_main_v77_apply, val_main_v74_apply, val_main_v76_apply, val_main_v75_apply,
    val_main_v78_apply, eb]
  refine congrArg₂ (· + ·) (congrArg₂ (· + ·) (Finset.sum_congr rfl fun k _ => ?_) rfl) (Finset.sum_congr rfl fun k _ => ?_)
  · rw [el k, er k, mean2]
  · rw [el' k, er' k]

abbrev H2 : Fin 100000 → Fin 64 → EReal := fun i j => val_main_v79 (F := Ideal) x0 e x2 x3 x4 x5 x6 x7 x8 x9 (ix2 i j)

theorem cmean2 (j : Fin 64) :
    val_main_v82 (F := Ideal) x0 e x2 x3 x4 x5 x6 x7 x8 x9 (ix1 j)
      = Cert.Spec.colMean (H2 x0 e x2 x4 x3 x8 x9 x5 x7 x6) j := by
  have es : ∀ k : Fin 100000, idx_main_v80 (ix1 j) k = ix2 k j := fun k => Shape.idx_ext₂ rfl rfl
  rw [val_main_v82_apply, val_main_v80_apply, val_main_v81_apply, val_main_cst_15_apply, val_main_cst_16_apply]
  simp only [es, Ideal.ofBits_def, Ideal.ofBits_zero_f32, zero_add, Ideal.hostDivf_def]
  rfl

theorem var2 (j : Fin 64) :
    val_main_v89 (F := Ideal) x0 e x2 x3 x4 x5 x6 x7 x8 x9 (ix1 j)
      = Ideal.div (∑ i' : Fin 100000,
          (H2 x0 e x2 x4 x3 x8 x9 x5 x7 x6 i' j - Cert.Spec.colMean (H2 x0 e x2 x4 x3 x8 x9 x5 x7 x6) j)
          * (H2 x0 e x2 x4 x3 x8 x9 x5 x7 x6 i' j - Cert.Spec.colMean (H2 x0 e x2 x4 x3 x8 x9 x5 x7 x6) j)) Cert.Spec.nodes := by
  have es : ∀ k : Fin 100000, idx_main_v87 (ix1 j) k = ix2 k j := fun k => Shape.idx_ext₂ rfl rfl
  have em : ∀ k : Fin 100000, idx_main_v83 (idx_main_v84 (ix2 k j)) = ix1 j := fun k =>
    funext fun a => Fin.ext (by match a with | ⟨0, _⟩ => rfl)
  rw [val_main_v89_apply, val_main_v87_apply, val_main_v88_apply, val_main_cst_17_apply, val_main_cst_18_apply]
  have hs : ∀ k : Fin 100000, val_main_v86 (F := Ideal) x0 e x2 x3 x4 x5 x6 x7 x8 x9 (idx_main_v87 (ix1 j) k)
      = (H2 x0 e x2 x4 x3 x8 x9 x5 x7 x6 k j - Cert.Spec.colMean (H2 x0 e x2 x4 x3 x8 x9 x5 x7 x6) j)
          * (H2 x0 e x2 x4 x3 x8 x9 x5 x7 x6 k j - Cert.Spec.colMean (H2 x0 e x2 x4 x3 x8 x9 x5 x7 x6) j) := fun k => by
    rw [es k, val_main_v86_apply, val_main_v85_apply, val_main_v84_apply, val_main_v83_apply, em k, cmean2]
    rfl
  simp only [hs, Ideal.ofBits_def, Ideal.ofBits_zero_f32, zero_add, Ideal.hostDivf_def]

theorem norm2 (i : Fin 100000) (j : Fin 64) :
    val_main_v105 (F := Ideal) x0 e x2 x3 x4 x5 x6 x7 x8 x9 x10 x11 (ix2 i j)
      = Cert.Spec.rNorm (H2 x0 e x2 x4 x3 x8 x9 x5 x7 x6) (tb1 64 x10) (tb1 64 x11) i j := by
  have em : idx_main_v90 (idx_main_v91 (ix2 i j)) = ix1 j :=
    funext fun a => Fin.ext (by match a with | ⟨0, _⟩ => rfl)
  have er : idx_main_v96 (idx_main_v97 (ix2 i j)) = ix1 j :=
    funext fun a => Fin.ext (by match a with | ⟨0, _⟩ => rfl)
  have eg : idx_main_v99 (idx_main_v100 (ix2 i j)) = ix1 j :=
    funext fun a => Fin.ext (by match a with | ⟨0, _⟩ => rfl)
  have eb : idx_main_v102 (idx_main_v103 (ix2 i j)) = ix1 j :=
    funext fun a => Fin.ext (by match a with | ⟨0, _⟩ => rfl)
  rw [val_main_v105_apply, val_main_call1_v0_apply, val_main_call1_cst_apply, val_main_v104_apply, val_main_v101_apply,
    val_main_v103_apply, val_main_v102_apply, val_main_v98_apply, val_main_v100_apply, val_main_v99_apply,
    val_main_v92_apply, val_main_v91_apply, val_main_v90_apply, val_main_v97_apply, val_main_v96_apply,
    val_main_v95_apply, val_main_v94_apply, val_main_v93_apply, val_main_cst_19_apply, em, er, eg, eb, cmean2, var2]
  rfl

theorem H2_eq : H2 x0 e x2 x4 x3 x8 x9 x5 x7 x6
    = Cert.Spec.lin (Cert.Spec.rMean (tb2 100000 64 (aggK64 (Z1 x0 e x2 x4 x3 x8 x9) e)) (tb1 100000 (cntK e)))
        (tb2 100000 64 (Z1 x0 e x2 x4 x3 x8 x9)) (tb2 64 64 x5) (tb2 64 64 x7) (tb1 64 x6) :=
  funext fun i => funext fun j => lin2 x0 e x2 x4 x3 x8 x9 x5 x7 x6 i j

theorem act2_tab : tb2 100000 64 (val_main_v105 (F := Ideal) x0 e x2 x3 x4 x5 x6 x7 x8 x9 x10 x11)
    = Cert.Spec.rNorm (H2 x0 e x2 x4 x3 x8 x9 x5 x7 x6) (tb1 64 x10) (tb1 64 x11) :=
  funext fun i => funext fun j => norm2 x0 e x2 x4 x3 x8 x9 x5 x7 x6 x10 x11 i j

end Layer2

end Ref

open Ref

variable (m : (ℓ : Loc nD τ sig) → Buf (Elt Ideal) ℓ) (c : Dev nD)

abbrev A (r : Ref sig .tc) : Buf (Elt Ideal) ((c.tc : Thread nD τ).loc r) := m ((c.tc : Thread nD τ).loc r)

def h1R : Fin 100000 → Fin 64 → EReal :=
  Cert.Spec.rNorm
    (Cert.Spec.lin (Cert.Spec.rMean (tb2 100000 2 (aggK2 (A m c main_arg0) (A m c main_arg1))) (tb1 100000 (cntK (A m c main_arg1))))
      (tb2 100000 2 (A m c main_arg0)) (tb2 2 64 (A m c main_arg2)) (tb2 2 64 (A m c main_arg4)) (tb1 64 (A m c main_arg3)))
    (tb1 64 (A m c main_arg8)) (tb1 64 (A m c main_arg9))

namespace Ref

theorem feat2_eq :
    Z1 (A m c main_arg0) (A m c main_arg1) (A m c main_arg2) (A m c main_arg4) (A m c main_arg3) (A m c main_arg8) (A m c main_arg9)
      = arr2 100000 64 (h1R m c) := by
  unfold Z1
  rw [act1_arr, H1_eq]
  rfl

end Ref

/-- The reference's result is each column's maximum of layer 2's activations, in its own spelling of a layer. -/
theorem ref_value (j : Fin 64) :
    tb1 64 (Cert.ReferenceIdeal.Value.res_main_v106 m c) j
      = Cert.Spec.colMax
          (Cert.Spec.rNorm
            (Cert.Spec.lin
              (Cert.Spec.rMean (tb2 100000 64 (aggK64 (arr2 100000 64 (h1R m c)) (A m c main_arg1))) (tb1 100000 (cntK (A m c main_arg1))))
              (h1R m c) (tb2 64 64 (A m c main_arg5)) (tb2 64 64 (A m c main_arg7)) (tb1 64 (A m c main_arg6)))
            (tb1 64 (A m c main_arg10)) (tb1 64 (A m c main_arg11))) j := by
  rw [Cert.ReferenceIdeal.Read.val_main_v106_eq]
  refine (hostMax_apply _ j).trans (congrArg (fun t => Cert.Spec.colMax t j) ?_)
  rw [act2_tab, H2_eq, feat2_eq m c]

end Cert.ReferenceIdeal.RefVal

end
-- ==== Proof.Val.Pre.lean ====
import proofs.«120156_j16690242912872_1_alg».proof.Defs
import proofs.«120156_j16690242912872_1_alg».proof.Proof.Gen.Pre_finite_inputs
import proofs.«120156_j16690242912872_1_alg».proof.Proof.Val.Spec
import Idealize.ShloMosaic.Lib.ReduceAll
import Idealize.ShloMosaic.Lib.ValueIdx

noncomputable section

namespace Cert.Proof.PreReal

open Idealize.ShloMosaic Idealize.ShloMosaic.TcCoe Idealize.SL.Sem
open Cert.KernelIdeal

instance : Subsingleton Cert.Pre_finite_inputs.S_.Idx := ⟨fun a b => funext fun d => d.elim0⟩

theorem ofBits_inf : Ideal.ofBits .f32 0x7F800000#32 = ⊤ := by
  simp [Ideal.ofBits, Ideal.ieee]

theorem real_of_abs_lt_inf (x : EReal)
    (h : Ideal.cmp .olt (max x (-x)) (Ideal.ofBits .f32 0x7F800000#32) = 1#1) : ∃ r : ℝ, x = (r : EReal) := by
  rw [ofBits_inf] at h
  induction x using EReal.rec with
  | bot => exact absurd h (by simp [Ideal.cmp])
  | top => exact absurd h (by simp [Ideal.cmp])
  | coe r => exact ⟨r, rfl⟩

theorem allReal_of_all {s : Shape} {axes : List (Fin s.rank)} (x : FVec Ideal s .f32)
    (hb : Cert.Pre_finite_inputs.S_.BroadcastsInDim s (![] : Fin 0 → Fin s.rank))
    (hr : s.ReducesTo axes Cert.Pre_finite_inputs.S_) (hu : 0 < Cert.Pre_finite_inputs.S_.numel)
    (e : Host.reduce IntOp.andi
        (cmpf .olt (Host.absf x)
          (broadcastInDim s ![] hb (constant (F := Ideal) Cert.Pre_finite_inputs.S_ .f32 0x7F800000#32)))
        (constantI Cert.Pre_finite_inputs.S_ 1 1#1) hr hu ValueIdx.ix0 = 1#1) :
    Cert.Spec.AllReal x := by
  intro i
  exact real_of_abs_lt_inf (x i) (Host.reduce_andi_all _ _ hr hu ValueIdx.ix0 e i)

/-- Every float argument is finite, hence real. -/
theorem args_real (m : (ℓ : Loc nD τ sig) → Buf (Elt Ideal) ℓ)
    (h : Cert.Pre_KernelIdeal (hPre_finite_inputs := Cert.Pre_finite_inputs.Gen.facts) m) (c : Dev nD) :
    Cert.Spec.AllReal (m ((c.tc : Thread nD τ).loc main_arg0) : FVec Ideal S100000x2 .f32)
    ∧ Cert.Spec.AllReal (m ((c.tc : Thread nD τ).loc main_arg2) : FVec Ideal S2x64 .f32)
    ∧ Cert.Spec.AllReal (m ((c.tc : Thread nD τ).loc main_arg3) : FVec Ideal S64 .f32)
    ∧ Cert.Spec.AllReal (m ((c.tc : Thread nD τ).loc main_arg4) : FVec Ideal S2x64 .f32)
    ∧ Cert.Spec.AllReal (m ((c.tc : Thread nD τ).loc main_arg5) : FVec Ideal S64x64 .f32)
    ∧ Cert.Spec.AllReal (m ((c.tc : Thread nD τ).loc main_arg6) : FVec Ideal S64 .f32)
    ∧ Cert.Spec.AllReal (m ((c.tc : Thread nD τ).loc main_arg7) : FVec Ideal S64x64 .f32)
    ∧ Cert.Spec.AllReal (m ((c.tc : Thread nD τ).loc main_arg8) : FVec Ideal S64 .f32)
    ∧ Cert.Spec.AllReal (m ((c.tc : Thread nD τ).loc main_arg9) : FVec Ideal S64 .f32)
    ∧ Cert.Spec.AllReal (m ((c.tc : Thread nD τ).loc main_arg10) : FVec Ideal S64 .f32)
    ∧ Cert.Spec.AllReal (m ((c.tc : Thread nD τ).loc main_arg11) : FVec Ideal S64 .f32) := by
  have h0 := congrFun (h c) ValueIdx.ix0
  dsimp only [Cert.Pre_finite_inputs.fn, Cert.Pre_finite_inputs.fn_part1, Cert.Pre_finite_inputs.fn_part2,
    Cert.Pre_finite_inputs.fn_part3, andi] at h0
  simp only [IntOp.andi_eq_one] at h0
  obtain ⟨⟨⟨⟨⟨⟨⟨⟨⟨⟨e0, e2⟩, e3⟩, e4⟩, e5⟩, e6⟩, e7⟩, e8⟩, e9⟩, e10⟩, e11⟩ := h0
  exact ⟨allReal_of_all _ _ _ _ e0, allReal_of_all _ _ _ _ e2, allReal_of_all _ _ _ _ e3, allReal_of_all _ _ _ _ e4,
    allReal_of_all _ _ _ _ e5, allReal_of_all _ _ _ _ e6, allReal_of_all _ _ _ _ e7, allReal_of_all _ _ _ _ e8,
    allReal_of_all _ _ _ _ e9, allReal_of_all _ _ _ _ e10, allReal_of_all _ _ _ _ e11⟩

end Cert.Proof.PreReal

end
-- ==== Proof.Val.Bridge.lean ====
import proofs.«120156_j16690242912872_1_alg».proof.Defs
import proofs.«120156_j16690242912872_1_alg».proof.Proof.Val.Ker
import proofs.«120156_j16690242912872_1_alg».proof.Proof.Val.Ref
import proofs.«120156_j16690242912872_1_alg».proof.Proof.Val.Pre
import proofs.«120156_j16690242912872_1_alg».proof.Proof.Math.Layer
import proofs.«120156_j16690242912872_1_alg».proof.Proof.Math.Agg

set_option maxRecDepth 16384

noncomputable section

namespace Cert.Proof.Bridge

open Idealize.ShloMosaic Idealize.ShloMosaic.TcCoe Idealize.ShloMosaic.ValueIdx Idealize.SL.Sem
open Cert.Spec
open scoped BigOperators

/-- On real inputs the two spellings of a layer agree. -/
theorem layer_eq {K H : ℕ} (A z : Fin 100000 → Fin K → EReal) (cnt : Fin 100000 → EReal) (Wl Wr : Fin K → Fin H → EReal)
    (b g be : Fin H → EReal) (hA : AllReal₂ A) (hz : AllReal₂ z) (hcnt : AllReal cnt) (hWl : AllReal₂ Wl) (hWr : AllReal₂ Wr)
    (hb : AllReal b) (hg : AllReal g) (hbe : AllReal be) :
    kNorm (lin (kMean A cnt) z Wl Wr b) g be = rNorm (lin (rMean A cnt) z Wl Wr b) g be := by
  rw [mean_eq]
  exact norm_eq _ _ _ (lin_real _ _ _ _ _ (rMean_real _ _ hA hcnt) hz hWl hWr hb) hg hbe

theorem layer_real {K H : ℕ} (A z : Fin 100000 → Fin K → EReal) (cnt : Fin 100000 → EReal) (Wl Wr : Fin K → Fin H → EReal)
    (b g be : Fin H → EReal) (hA : AllReal₂ A) (hz : AllReal₂ z) (hcnt : AllReal cnt) (hWl : AllReal₂ Wl) (hWr : AllReal₂ Wr)
    (hb : AllReal b) (hg : AllReal g) (hbe : AllReal be) :
    AllReal₂ (rNorm (lin (rMean A cnt) z Wl Wr b) g be) :=
  rNorm_real _ _ _ (lin_real _ _ _ _ _ (rMean_real _ _ hA hcnt) hz hWl hWr hb) hg hbe

theorem tb2_real (n0 n1 : ℕ) (x : FVec Ideal (⟨2, ![n0, n1]⟩ : Shape) .f32) (h : AllReal x) : AllReal₂ (tb2 n0 n1 x) :=
  fun i j => h (ix2 i j)
theorem tb1_real (n : ℕ) (x : FVec Ideal (⟨1, ![n]⟩ : Shape) .f32) (h : AllReal x) : AllReal (tb1 n x) :=
  fun i => h (ix1 i)
theorem arr2_real (n0 n1 : ℕ) (t : Fin n0 → Fin n1 → EReal) (h : AllReal₂ t) : AllReal (arr2 n0 n1 t) :=
  fun ι => h (ι 0) (ι 1)

open Cert.KernelIdeal.Hand in

theorem value_eq
    (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (hpre : Cert.Pre_KernelIdeal (hPre_finite_inputs := Cert.Pre_finite_inputs.Gen.facts) m)
    (c : Dev Cert.KernelIdeal.nD)
    (hag : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11))
    (j : Fin 64) :
    tb1 64 (Cert.ReferenceIdeal.Value.res_main_v106 m' c) j = tb1 64 (W9 m c Cert.KernelIdeal.main_v72) j := by
  obtain ⟨r0, r2, r3, r4, r5, r6, r7, r8, r9, r10, r11⟩ := Cert.Proof.PreReal.args_real m hpre c
  obtain ⟨e0, e1, e2, e3, e4, e5, e6, e7, e8, e9, e10, e11⟩ := hag
  rw [Cert.ReferenceIdeal.RefVal.ref_value m' c j, ker_value m c j]

  have hcnt : AllReal (cntT m c) := tb1_real _ _ (cntK_real _)
  have hA1 : AllReal₂ (tb2 100000 2 (aggK2 (W0 m c Cert.KernelIdeal.main_arg0) (W0 m c Cert.KernelIdeal.main_arg1))) :=
    tb2_real _ _ _ (aggK2_real _ _ r0)
  have h1eq : Cert.ReferenceIdeal.RefVal.h1R m' c = h1K m c := by
    unfold Cert.ReferenceIdeal.RefVal.h1R h1K hpre1K Cert.ReferenceIdeal.RefVal.A
    rw [e0, e1, e2, e3, e4, e8, e9]
    exact (layer_eq _ _ _ _ _ _ _ _ hA1 (tb2_real _ _ _ r0) hcnt (tb2_real _ _ _ r2) (tb2_real _ _ _ r4) (tb1_real _ _ r3)
      (tb1_real _ _ r8) (tb1_real _ _ r9)).symm
  have h1real : AllReal₂ (h1K m c) := by
    rw [← h1eq]
    unfold Cert.ReferenceIdeal.RefVal.h1R Cert.ReferenceIdeal.RefVal.A
    rw [e0, e1, e2, e3, e4, e8, e9]
    exact layer_real _ _ _ _ _ _ _ _ hA1 (tb2_real _ _ _ r0) hcnt (tb2_real _ _ _ r2) (tb2_real _ _ _ r4) (tb1_real _ _ r3)
      (tb1_real _ _ r8) (tb1_real _ _ r9)
  have hA2 : AllReal₂ (tb2 100000 64 (aggK64 (arr2 100000 64 (h1K m c)) (W0 m c Cert.KernelIdeal.main_arg1))) :=
    tb2_real _ _ _ (aggK64_real _ _ (arr2_real _ _ _ h1real))

  unfold Cert.ReferenceIdeal.RefVal.A hpre2K
  rw [h1eq, e1, e5, e6, e7, e10, e11]
  exact congrArg (fun t => colMax t j)
    (layer_eq _ _ _ _ _ _ _ _ hA2 h1real hcnt (tb2_real _ _ _ r5) (tb2_real _ _ _ r7) (tb1_real _ _ r6)
      (tb1_real _ _ r10) (tb1_real _ _ r11)).symm

end Cert.Proof.Bridge

end
-- ==== Proof.lean ====
/- A graph encoder: two normalised neighbour-mean layers and a column maximum, as four kernels among host operations, against its reference. -/
import proofs.«120156_j16690242912872_1_alg».proof.Defs
import proofs.«120156_j16690242912872_1_alg».proof.Proof.Gen.Kernel
import proofs.«120156_j16690242912872_1_alg».proof.Proof.Gen.KernelIdeal
import proofs.«120156_j16690242912872_1_alg».proof.Proof.Gen.ReferenceIdeal
import proofs.«120156_j16690242912872_1_alg».proof.Proof.Gen.ReferenceIdeal.Run
import proofs.«120156_j16690242912872_1_alg».proof.Proof.Gen.ReferenceIdeal.Read
import proofs.«120156_j16690242912872_1_alg».proof.Proof.Gen.Pre_finite_inputs
import proofs.«120156_j16690242912872_1_alg».proof.Proof.KI.Run
import proofs.«120156_j16690242912872_1_alg».proof.Proof.Val.Ker
import proofs.«120156_j16690242912872_1_alg».proof.Proof.Val.Bridge
import Idealize.ShloMosaic.Adequacy
import Idealize.ShloMosaic.Init
import Idealize.ShloMosaic.Lib.Tactic

noncomputable section

namespace Cert.Proof

open Idealize.ShloMosaic Idealize.ShloMosaic.TcCoe Idealize.SL.Sem

/-- The two printed programs are one text under two names, so their frame statements are one proposition. -/
theorem frame_k : Cert.frame_Kernel (hKernel := Cert.Kernel.Gen.facts) (hPre_finite_inputs := Cert.Pre_finite_inputs.Gen.facts) :=
  fun m ρ _ => cast (by sl_kernel_rfl)
    ((θ_run Cert.KernelIdeal.defs _ _).mono (fun _ h c => (h c).2) (Cert.KernelIdeal.Hand.run_named (F := Bits) m ρ))

theorem frame_ki : Cert.frame_KernelIdeal (hKernelIdeal := Cert.KernelIdeal.Gen.facts) (hPre_finite_inputs := Cert.Pre_finite_inputs.Gen.facts) :=
  fun m ρ _ => (θ_run Cert.KernelIdeal.defs _ _).mono (fun _ h c => (h c).2) (Cert.KernelIdeal.Hand.run_named (F := Ideal) m ρ)

theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

open Idealize.ShloMosaic.ValueIdx in
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  refine ⟨fun c => Cert.KernelIdeal.Hand.W9 m c Cert.KernelIdeal.main_v72, Cert.KernelIdeal.Hand.run_named m ρ, ?_⟩
  refine (θ_run Cert.ReferenceIdeal.defs _ _).mono (fun _ h c => ⟨(h c).1.trans ?_, (h c).2⟩)
    (Cert.ReferenceIdeal.Value.run (F := Ideal) m' ρ')
  funext ι
  obtain ⟨j, rfl⟩ : ∃ j : Fin 64, ι = ix1 j := ⟨ι 0, eq_ix1 ι⟩
  exact Cert.Proof.Bridge.value_eq m m' hpre c (hagree c) j

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
